-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S64x20000 : Shape := ⟨2, ![64, 20000]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S128 : Shape := ⟨1, ![128]⟩
abbrev S64x128 : Shape := ⟨2, ![64, 128]⟩
abbrev S20000x64 : Shape := ⟨2, ![20000, 64]⟩
abbrev S20000 : Shape := ⟨1, ![20000]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S64x20000 : S_.BroadcastsInDim S64x20000 (![] : Fin 0 → Fin S64x20000.rank)
  reducesTo_S64x20000_S_d0_1 : S64x20000.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S20000x64 : S_.BroadcastsInDim S20000x64 (![] : Fin 0 → Fin S20000x64.rank)
  reducesTo_S20000x64_S_d0_1 : S20000x64.ReducesTo [0, 1] S_
  bcast_S_S20000 : S_.BroadcastsInDim S20000 (![] : Fin 0 → Fin S20000.rank)
  reducesTo_S20000_S_d0 : S20000.ReducesTo [0] S_

variable [Facts]

def fn_part5 {F : FTy → Type} [FloatOps F] (main_arg18 : FVec F S20000 .f32) (main_v83 : IVec S_ 1) (main_v84 : FVec F S20000x64 .f32) (main_cst_32 : FVec F S_ .f32) : IVec S_ 1 :=
  let main_v85 : FVec F S20000x64 .f32 := broadcastInDim S20000x64 ![] bcast_S_S20000x64 main_cst_32
  let main_v86 : IVec S20000x64 1 := cmpf .olt main_v84 main_v85
  let main_c_33 : IVec S_ 1 := constantI S_ 1 1#1
  let main_v87 : IVec S_ 1 := (fun x v => Host.reduce IntOp.andi x v reducesTo_S20000x64_S_d0_1 h_S_) main_v86 main_c_33
  let main_v88 : IVec S_ 1 := andi main_v83 main_v87
  let main_v89 : FVec F S20000 .f32 := Host.absf main_arg18
  let main_cst_34 : FVec F S_ .f32 := constant S_ .f32 0x7F800000#32
  let main_v90 : FVec F S20000 .f32 := broadcastInDim S20000 ![] bcast_S_S20000 main_cst_34
  let main_v91 : IVec S20000 1 := cmpf .olt main_v89 main_v90
  let main_c_35 : IVec S_ 1 := constantI S_ 1 1#1
  let main_v92 : IVec S_ 1 := (fun x v => Host.reduce IntOp.andi x v reducesTo_S20000_S_d0 h_S_) main_v91 main_c_35
  let main_v93 : IVec S_ 1 := andi main_v88 main_v92
  main_v93

def fn_part4 {F : FTy → Type} [FloatOps F] (main_arg14 : FVec F S128 .f32) (main_arg15 : FVec F S64x128 .f32) (main_arg16 : FVec F S64 .f32) (main_arg17 : FVec F S20000x64 .f32) (main_arg18 : FVec F S20000 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S20000x64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64x64 .f32 := Host.absf main_arg11
  let main_cst_20 : FVec F S_ .f32 := constant S_ .f32 0x7F800000#32
  let main_v55 : FVec F S3x64x64 .f32 := broadcastInDim S3x64x64 ![] bcast_S_S3x64x64 main_cst_20
  let main_v56 : IVec S3x64x64 1 := cmpf .olt main_v54 main_v55
  let main_c_21 : IVec S_ 1 := constantI S_ 1 1#1
  let main_v57 : IVec S_ 1 := (fun x v => Host.reduce IntOp.andi x v reducesTo_S3x64x64_S_d0_1_2 h_S_) main_v56 main_c_21
  let main_v58 : IVec S_ 1 := andi main_v53 main_v57
  let main_v59 : FVec F S3x64 .f32 := Host.absf main_arg12
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_arg17 main_arg18 main_v63 main_v67

def fn_part2 {F : FTy → Type} [FloatOps F] (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) (main_v33 : IVec S_ 1) : IVec S_ 1 :=
  let main_v34 : FVec F S3x64x64 .f32 := Host.absf main_arg7
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg9
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg10
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_arg14 main_arg15 main_arg16 main_arg17 main_arg18 main_v48 main_v49 main_v50

def fn_part1 {F : FTy → Type} [FloatOps F] (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x20000 .f32) (main_arg1 : FVec F S64x20000 .f32) (main_arg2 : FVec F S64 .f32) (main_arg3 : FVec F S3x64x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_v4 : FVec F S64x20000 .f32 := Host.absf main_arg1
  let main_cst_0 : FVec F S_ .f32 := constant S_ .f32 0x7F800000#32
  let main_v5 : FVec F S64x20000 .f32 := broadcastInDim S64x20000 ![] bcast_S_S64x20000 main_cst_0
  let main_v6 : IVec S64x20000 1 := cmpf .olt main_v4 main_v5
  let main_c_1 : IVec S_ 1 := constantI S_ 1 1#1
  let main_v7 : IVec S_ 1 := (fun x v => Host.reduce IntOp.andi x v reducesTo_S64x20000_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x20000 : Shape := ⟨2, ![4096, 20000]⟩
abbrev S64x20000 : Shape := ⟨2, ![64, 20000]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S128 : Shape := ⟨1, ![128]⟩
abbrev S64x128 : Shape := ⟨2, ![64, 128]⟩
abbrev S20000x64 : Shape := ⟨2, ![20000, 64]⟩
abbrev S20000 : Shape := ⟨1, ![20000]⟩
abbrev S_ : Shape := ⟨0, ![]⟩
abbrev S4096x20480 : Shape := ⟨2, ![4096, 20480]⟩
abbrev S64x20480 : Shape := ⟨2, ![64, 20480]⟩
abbrev S20480x64 : Shape := ⟨2, ![20480, 64]⟩
abbrev S20480 : Shape := ⟨1, ![20480]⟩
abbrev S1x20480 : Shape := ⟨2, ![1, 20480]⟩
abbrev S4096x64 : Shape := ⟨2, ![4096, 64]⟩
abbrev S512x2560 : Shape := ⟨2, ![512, 2560]⟩
abbrev S64x2560 : Shape := ⟨2, ![64, 2560]⟩
abbrev S512x64 : Shape := ⟨2, ![512, 64]⟩
abbrev S2560x64 : Shape := ⟨2, ![2560, 64]⟩
abbrev S1x64 : Shape := ⟨2, ![1, 64]⟩
abbrev S1x64x64 : Shape := ⟨3, ![1, 64, 64]⟩
abbrev S64x64 : Shape := ⟨2, ![64, 64]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1x2560 : Shape := ⟨2, ![1, 2560]⟩

abbrev nBuf : Space → Nat
  | .hbm => 35
  | .vmem => 28
  | .smem => 0
  | _ => 0

abbrev bufTy : (tb : Table) → Fin (tcTables nBuf tb) → BufTy
  | .hbm, ⟨0, _⟩ => ⟨S4096x20000, .f32⟩
  | .hbm, ⟨1, _⟩ => ⟨S64x20000, .f32⟩
  | .hbm, ⟨2, _⟩ => ⟨S64, .f32⟩
  | .hbm, ⟨3, _⟩ => ⟨S3x64x64, .f32⟩
  | .hbm, ⟨4, _⟩ => ⟨S3x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S3x64x64, .f32⟩
  | .hbm, ⟨10, _⟩ => ⟨S3x64, .f32⟩
  | .hbm, ⟨11, _⟩ => ⟨S3x64x64, .f32⟩
  | .hbm, ⟨12, _⟩ => ⟨S3x64, .f32⟩
  | .hbm, ⟨13, _⟩ => ⟨S128x64, .f32⟩
  | .hbm, ⟨14, _⟩ => ⟨S128, .f32⟩
  | .hbm, ⟨15, _⟩ => ⟨S64x128, .f32⟩
  | .hbm, ⟨16, _⟩ => ⟨S64, .f32⟩
  | .hbm, ⟨17, _⟩ => ⟨S20000x64, .f32⟩
  | .hbm, ⟨18, _⟩ => ⟨S20000, .f32⟩
  | .hbm, ⟨19, _⟩ => ⟨S_, .i32⟩
  | .hbm, ⟨20, _⟩ => ⟨S_, .f32⟩
  | .hbm, ⟨21, _⟩ => ⟨S4096x20480, .f32⟩
  | .hbm, ⟨22, _⟩ => ⟨S_, .i32⟩
  | .hbm, ⟨23, _⟩ => ⟨S_, .f32⟩
  | .hbm, ⟨24, _⟩ => ⟨S64x20480, .f32⟩
  | .hbm, ⟨25, _⟩ => ⟨S_, .i32⟩
  | .hbm, ⟨26, _⟩ => ⟨S_, .f32⟩
  | .hbm, ⟨27, _⟩ => ⟨S20480x64, .f32⟩
  | .hbm, ⟨28, _⟩ => ⟨S_, .i32⟩
  | .hbm, ⟨29, _⟩ => ⟨S_, .f32⟩
  | .hbm, ⟨30, _⟩ => ⟨S20480, .f32⟩
  | .hbm, ⟨31, _⟩ => ⟨S1x20480, .f32⟩
  | .hbm, ⟨32, _⟩ => ⟨S4096x64, .f32⟩
  | .hbm, ⟨33, _⟩ => ⟨S4096x20480, .f32⟩
  | .hbm, ⟨34, _⟩ => ⟨S4096x20000, .f32⟩
  | .local _ .vmem, ⟨0, _⟩ => ⟨S512x2560, .f32⟩
  | .local _ .vmem, ⟨1, _⟩ => ⟨S512x2560, .f32⟩
  | .local _ .vmem, ⟨2, _⟩ => ⟨S64x2560, .f32⟩
  | .local _ .vmem, ⟨3, _⟩ => ⟨S64x2560, .f32⟩
  | .local _ .vmem, ⟨4, _⟩ => ⟨S64, .f32⟩
  | .local _ .vmem, ⟨5, _⟩ => ⟨S3x64x64, .f32⟩
  | .local _ .vmem, ⟨6, _⟩ => ⟨S3x64, .f32⟩
  | .local _ .vmem, ⟨7, _⟩ => ⟨S3x64x64, .f32⟩
  | .local _ .vmem, ⟨8, _⟩ => ⟨S3x64, .f32⟩
  | .local _ .vmem, ⟨9, _⟩ => ⟨S3x64x64, .f32⟩
  | .local _ .vmem, ⟨10, _⟩ => ⟨S3x64, .f32⟩
  | .local _ .vmem, ⟨11, _⟩ => ⟨S3x64x64, .f32⟩
  | .local _ .vmem, ⟨12, _⟩ => ⟨S3x64, .f32⟩
  | .local _ .vmem, ⟨13, _⟩ => ⟨S128x64, .f32⟩
  | .local _ .vmem, ⟨14, _⟩ => ⟨S128, .f32⟩
  | .local _ .vmem, ⟨15, _⟩ => ⟨S64x128, .f32⟩
  | .local _ .vmem, ⟨16, _⟩ => ⟨S64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S512x64, .f32⟩
  | .local _ .vmem, ⟨22, _⟩ => ⟨S2560x64, .f32⟩
  | .local _ .vmem, ⟨23, _⟩ => ⟨S2560x64, .f32⟩
  | .local _ .vmem, ⟨24, _⟩ => ⟨S1x2560, .f32⟩
  | .local _ .vmem, ⟨25, _⟩ => ⟨S1x2560, .f32⟩
  | .local _ .vmem, ⟨26, _⟩ => ⟨S512x2560, .f32⟩
  | .local _ .vmem, ⟨27, _⟩ => ⟨S512x2560, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_v1 : Ref sig .tc := ⟨.hbm, 24, rfl⟩
abbrev main_c_1 : Ref sig .tc := ⟨.hbm, 25, rfl⟩
abbrev main_call2_v0 : Ref sig .tc := ⟨.hbm, 26, rfl⟩
abbrev main_v2 : Ref sig .tc := ⟨.hbm, 27, rfl⟩
abbrev main_c_2 : Ref sig .tc := ⟨.hbm, 28, rfl⟩
abbrev main_call3_v0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2560x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S4096x20000_S4096x20480_000_04800 : S4096x20000.Pads (![0, 0] : Fin 2 → Nat) ![0, 480] ![0, 0] S4096x20480
  h_S_ : 0 < S_.numel
  pads_S64x20000_S64x20480_000_04800 : S64x20000.Pads (![0, 0] : Fin 2 → Nat) ![0, 480] ![0, 0] S64x20480
  pads_S20000x64_S20480x64_04800_000 : S20000x64.Pads (![0, 0] : Fin 2 → Nat) ![480, 0] ![0, 0] S20480x64
  pads_S20000_S20480_04800 : S20000.Pads (![0] : Fin 1 → Nat) ![480] ![0] S20480
  shapeCasts_S20480_S1x20480 : S20480.ShapeCasts S1x20480
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  bitsLt_bf16_f32 : FTy.bits .bf16 < FTy.bits .f32
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  transposes_S64x2560_p1_0_S2560x64 : S64x2560.Transposes [1, 0] S2560x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  transposes_S64x64_p1_0_S64x64 : S64x64.Transposes [1, 0] S64x64
  inb_S3x64_S1x64_0_0 : ∀ a, (![0, 0] : Fin 2 → Nat) a + S1x64.size a ≤ S3x64.size a
  h_S1x64 : 0 < S1x64.numel
  shapeCasts_S1x64_S64 : S1x64.ShapeCasts S64
  reduces_S512x64_S512 : S512x64.Reduces [1] S512
  shapeCasts_S512_S512x1 : S512.ShapeCasts S512x1
  broadcasts_S512x1_S512x64 : S512x1.Broadcasts S512x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  transposes_S2560x64_p1_0_S64x2560 : S2560x64.Transposes [1, 0] S64x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S512x2560 : S1x2560.Broadcasts S512x2560
  slices_S4096x20480_S4096x20000_0_0 : S4096x20480.Slices ![0, 0] S4096x20000
  dot_S512x2560_S2560x64_S512x64_1_0_0_1_n_n_wf : DotDims.WF S512x2560 S2560x64 S512x64 [1] [0] [0] [1] [] []
  dot_S512x64_S64x64_S512x64_1_0_0_1_n_n_wf : DotDims.WF S512x64 S64x64 S512x64 [1] [0] [0] [1] [] []
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []
  dot_S512x64_S64x2560_S512x2560_1_0_0_1_n_n_wf : DotDims.WF S512x64 S64x2560 S512x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2560.size a ≤ S4096x20480.size a
  hwx0_0 : ∀ i : grid0.Coords, EltTy.bits .f32 = 32 ∨ (Rect.block (s := S4096x20480) S512x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2560.size a ≤ S64x20480.size a
  hwx0_1 : ∀ i : grid0.Coords, EltTy.bits .f32 = 32 ∨ (Rect.block (s := S64x20480) S64x2560.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64.size a ≤ S3x64x64.size a
  hwx0_5 : ∀ i : grid0.Coords, EltTy.bits .f32 = 32 ∨ (Rect.block (s := S3x64x64) S3x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64x64.size a ≤ S3x64x64.size a
  hwx0_7 : ∀ i : grid0.Coords, EltTy.bits .f32 = 32 ∨ (Rect.block (s := S3x64x64) S3x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .f32 = 32 ∨ (Rect.block (s := S3x64) S3x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x64.size a ≤ S3x64x64.size a
  hwx0_9 : ∀ i : grid0.Coords, EltTy.bits .f32 = 32 ∨ (Rect.block (s := S3x64x64) S3x64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64.size a ≤ S3x64.size a
  hwx0_10 : ∀ i : grid0.Coords, EltTy.bits .f32 = 32 ∨ (Rect.block (s := S3x64) S3x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .f32 = 32 ∨ (Rect.block (s := S64x128) S64x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x64.size a ≤ S4096x64.size a
  hwx0_15 : ∀ i : grid0.Coords, EltTy.bits .f32 = 32 ∨ (Rect.block (s := S4096x64) S512x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S4096x64.size a
  hwx1_0 : ∀ i : grid1.Coords, EltTy.bits .f32 = 32 ∨ (Rect.block (s := S4096x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x64.size a ≤ S20480x64.size a
  hwx1_1 : ∀ i : grid1.Coords, EltTy.bits .f32 = 32 ∨ (Rect.block (s := S20480x64) S2560x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2560.size a ≤ S1x20480.size a
  hwx1_2 : ∀ i : grid1.Coords, EltTy.bits .f32 = 32 ∨ (Rect.block (s := S1x20480) S1x2560.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2560.size a ≤ S4096x20480.size a
  hwx1_3 : ∀ i : grid1.Coords, EltTy.bits .f32 = 32 ∨ (Rect.block (s := S4096x20480) S512x2560.size (cc1_transform_3 i) (hinb1_3 i)).WholeWords (EltTy.packing .f32)

variable [Facts₀]

def dot_S512x2560_S2560x64_S512x64_1_0_0_1_n_n : DotDims S512x2560 S2560x64 S512x64 where
  lhsContracting := [1]
  rhsContracting := [0]
  lhsNonContracting := [0]
  rhsNonContracting := [1]
  lhsBatch := []
  rhsBatch := []
  wf := dot_S512x2560_S2560x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x2560_S512x2560_1_0_0_1_n_n : DotDims S512x64 S64x2560 S512x2560 where
  lhsContracting := [1]
  rhsContracting := [0]
  lhsNonContracting := [0]
  rhsNonContracting := [1]
  lhsBatch := []
  rhsBatch := []
  wf := dot_S512x64_S64x2560_S512x2560_1_0_0_1_n_n_wf

abbrev win0_0 : Pipeline.Window sig grid0 :=
  Pipeline.Window.ofSpec (Memref.whole main_v0) S512x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S3x64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S3x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S512x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

abbrev win1_0 : Pipeline.Window sig grid1 :=
  Pipeline.Window.ofSpec (Memref.whole main_v5) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2560x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x20000 : Shape := ⟨2, ![4096, 20000]⟩
abbrev S64x20000 : Shape := ⟨2, ![64, 20000]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S128 : Shape := ⟨1, ![128]⟩
abbrev S64x128 : Shape := ⟨2, ![64, 128]⟩
abbrev S20000x64 : Shape := ⟨2, ![20000, 64]⟩
abbrev S20000 : Shape := ⟨1, ![20000]⟩
abbrev S4096x64 : Shape := ⟨2, ![4096, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩
abbrev S1x20000 : Shape := ⟨2, ![1, 20000]⟩

abbrev nBuf : Space → Nat
  | .hbm => 172
  | .vmem => 0
  | .smem => 0
  | _ => 0

abbrev hbmTy0_0 (i : Nat) : BufTy := match i % 128 with
  | 0 => ⟨S4096x20000, .f32⟩
  | 1 => ⟨S64x20000, .f32⟩
  | 2 => ⟨S64, .f32⟩
  | 3 => ⟨S3x64x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S128x64, .f32⟩
  | 14 => ⟨S128, .f32⟩
  | 15 => ⟨S64x128, .f32⟩
  | 16 => ⟨S64, .f32⟩
  | 17 => ⟨S20000x64, .f32⟩
  | 18 => ⟨S20000, .f32⟩
  | 19 => ⟨S20000x64, .f32⟩
  | 20 => ⟨S4096x64, .f32⟩
  | 21 => ⟨S1x64, .f32⟩
  | 22 => ⟨S4096x64, .f32⟩
  | 23 => ⟨S4096x64, .f32⟩
  | 24 => ⟨S1x64x64, .f32⟩
  | 25 => ⟨S64x64, .f32⟩
  | 26 => ⟨S64x64, .f32⟩
  | 27 => ⟨S4096x64, .f32⟩
  | 28 => ⟨S1x64, .f32⟩
  | 29 => ⟨S64, .f32⟩
  | 30 => ⟨S1x64, .f32⟩
  | 31 => ⟨S4096x64, .f32⟩
  | 32 => ⟨S4096x64, .f32⟩
  | 33 => ⟨S1x64x64, .f32⟩
  | 34 => ⟨S64x64, .f32⟩
  | 35 => ⟨S64x64, .f32⟩
  | 36 => ⟨S4096x64, .f32⟩
  | 37 => ⟨S1x64, .f32⟩
  | 38 => ⟨S64, .f32⟩
  | 39 => ⟨S1x64, .f32⟩
  | 40 => ⟨S4096x64, .f32⟩
  | 41 => ⟨S4096x64, .f32⟩
  | 42 => ⟨S1x64x64, .f32⟩
  | 43 => ⟨S64x64, .f32⟩
  | 44 => ⟨S64x64, .f32⟩
  | 45 => ⟨S4096x64, .f32⟩
  | 46 => ⟨S1x64, .f32⟩
  | 47 => ⟨S64, .f32⟩
  | 48 => ⟨S1x64, .f32⟩
  | 49 => ⟨S4096x64, .f32⟩
  | 50 => ⟨S4096x64, .f32⟩
  | 51 => ⟨S4096x64, .f32⟩
  | 52 => ⟨S_, .f32⟩
  | 53 => ⟨S4096, .f32⟩
  | 54 => ⟨S4096x1, .f32⟩
  | 55 => ⟨S4096x64, .f32⟩
  | 56 => ⟨S4096x64, .f32⟩
  | 57 => ⟨S1x64x64, .f32⟩
  | 58 => ⟨S64x64, .f32⟩
  | 59 => ⟨S64x64, .f32⟩
  | 60 => ⟨S4096x64, .f32⟩
  | 61 => ⟨S1x64, .f32⟩
  | 62 => ⟨S64, .f32⟩
  | 63 => ⟨S1x64, .f32⟩
  | 64 => ⟨S4096x64, .f32⟩
  | 65 => ⟨S4096x64, .f32⟩
  | 66 => ⟨S4096x64, .f32⟩
  | 67 => ⟨S1x64x64, .f32⟩
  | 68 => ⟨S64x64, .f32⟩
  | 69 => ⟨S64x64, .f32⟩
  | 70 => ⟨S4096x64, .f32⟩
  | 71 => ⟨S1x64, .f32⟩
  | 72 => ⟨S64, .f32⟩
  | 73 => ⟨S1x64, .f32⟩
  | 74 => ⟨S4096x64, .f32⟩
  | 75 => ⟨S4096x64, .f32⟩
  | 76 => ⟨S1x64x64, .f32⟩
  | 77 => ⟨S64x64, .f32⟩
  | 78 => ⟨S64x64, .f32⟩
  | 79 => ⟨S4096x64, .f32⟩
  | 80 => ⟨S1x64, .f32⟩
  | 81 => ⟨S64, .f32⟩
  | 82 => ⟨S1x64, .f32⟩
  | 83 => ⟨S4096x64, .f32⟩
  | 84 => ⟨S4096x64, .f32⟩
  | 85 => ⟨S1x64x64, .f32⟩
  | 86 => ⟨S64x64, .f32⟩
  | 87 => ⟨S64x64, .f32⟩
  | 88 => ⟨S4096x64, .f32⟩
  | 89 => ⟨S1x64, .f32⟩
  | 90 => ⟨S64, .f32⟩
  | 91 => ⟨S1x64, .f32⟩
  | 92 => ⟨S4096x64, .f32⟩
  | 93 => ⟨S4096x64, .f32⟩
  | 94 => ⟨S4096x64, .f32⟩
  | 95 => ⟨S_, .f32⟩
  | 96 => ⟨S4096, .f32⟩
  | 97 => ⟨S4096x1, .f32⟩
  | 98 => ⟨S4096x64, .f32⟩
  | 99 => ⟨S4096x64, .f32⟩
  | 100 => ⟨S1x64x64, .f32⟩
  | 101 => ⟨S64x64, .f32⟩
  | 102 => ⟨S64x64, .f32⟩
  | 103 => ⟨S4096x64, .f32⟩
  | 104 => ⟨S1x64, .f32⟩
  | 105 => ⟨S64, .f32⟩
  | 106 => ⟨S1x64, .f32⟩
  | 107 => ⟨S4096x64, .f32⟩
  | 108 => ⟨S4096x64, .f32⟩
  | 109 => ⟨S4096x64, .f32⟩
  | 110 => ⟨S1x64x64, .f32⟩
  | 111 => ⟨S64x64, .f32⟩
  | 112 => ⟨S64x64, .f32⟩
  | 113 => ⟨S4096x64, .f32⟩
  | 114 => ⟨S1x64, .f32⟩
  | 115 => ⟨S64, .f32⟩
  | 116 => ⟨S1x64, .f32⟩
  | 117 => ⟨S4096x64, .f32⟩
  | 118 => ⟨S4096x64, .f32⟩
  | 119 => ⟨S1x64x64, .f32⟩
  | 120 => ⟨S64x64, .f32⟩
  | 121 => ⟨S64x64, .f32⟩
  | 122 => ⟨S4096x64, .f32⟩
  | 123 => ⟨S1x64, .f32⟩
  | 124 => ⟨S64, .f32⟩
  | 125 => ⟨S1x64, .f32⟩
  | 126 => ⟨S4096x64, .f32⟩
  | 127 => ⟨S4096x64, .f32⟩
  | _ => ⟨S4096x20000, .f32⟩

abbrev hbmTy0_1 (i : Nat) : BufTy := match i % 128 with
  | 0 => ⟨S1x64x64, .f32⟩
  | 1 => ⟨S64x64, .f32⟩
  | 2 => ⟨S64x64, .f32⟩
  | 3 => ⟨S4096x64, .f32⟩
  | 4 => ⟨S1x64, .f32⟩
  | 5 => ⟨S64, .f32⟩
  | 6 => ⟨S1x64, .f32⟩
  | 7 => ⟨S4096x64, .f32⟩
  | 8 => ⟨S4096x64, .f32⟩
  | 9 => ⟨S4096x64, .f32⟩
  | 10 => ⟨S_, .f32⟩
  | 11 => ⟨S4096, .f32⟩
  | 12 => ⟨S4096x1, .f32⟩
  | 13 => ⟨S4096x64, .f32⟩
  | 14 => ⟨S4096x64, .f32⟩
  | 15 => ⟨S1x64x64, .f32⟩
  | 16 => ⟨S64x64, .f32⟩
  | 17 => ⟨S64x64, .f32⟩
  | 18 => ⟨S4096x64, .f32⟩
  | 19 => ⟨S1x64, .f32⟩
  | 20 => ⟨S64, .f32⟩
  | 21 => ⟨S1x64, .f32⟩
  | 22 => ⟨S4096x64, .f32⟩
  | 23 => ⟨S4096x64, .f32⟩
  | 24 => ⟨S4096x64, .f32⟩
  | 25 => ⟨S64x128, .f32⟩
  | 26 => ⟨S4096x128, .f32⟩
  | 27 => ⟨S1x128, .f32⟩
  | 28 => ⟨S4096x128, .f32⟩
  | 29 => ⟨S4096x128, .f32⟩
  | 30 => ⟨S_, .f32⟩
  | 31 => ⟨S4096x128, .f32⟩
  | 32 => ⟨S4096x128, .f32⟩
  | 33 => ⟨S128x64, .f32⟩
  | 34 => ⟨S4096x64, .f32⟩
  | 35 => ⟨S1x64, .f32⟩
  | 36 => ⟨S4096x64, .f32⟩
  | 37 => ⟨S4096x64, .f32⟩
  | 38 => ⟨S4096x64, .f32⟩
  | 39 => ⟨S64x20000, .f32⟩
  | 40 => ⟨S4096x20000, .f32⟩
  | 41 => ⟨S1x20000, .f32⟩
  | 42 => ⟨S4096x20000, .f32⟩
  | 43 => ⟨S4096x20000, .f32⟩
  | _ => ⟨S4096x20000, .f32⟩

abbrev hbmTy (i : Nat) : BufTy := match i / 128 with
  | 0 => hbmTy0_0 i
  | 1 => hbmTy0_1 i
  | _ => ⟨S4096x20000, .f32⟩

abbrev bufTy : (tb : Table) → Fin (tcTables nBuf tb) → BufTy
  | .hbm, ⟨i, _⟩ => hbmTy i
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_0 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_1 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_call0_cst : Ref sig .tc := ⟨.hbm, 158, rfl⟩
abbrev main_call0_v0 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩

abbrev nD : Nat := 1
abbrev τ : Topo := Topo.v7x

variable {F : FTy → Type} [FloatOps F]

class Facts₀ : Prop where
  transposes_S64x20000_S20000x64_1_0 : S64x20000.Transposes [1, 0] S20000x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S64x128_S128x64_1_0 : S64x128.Transposes [1, 0] S128x64
  transposes_S20000x64_S64x20000_1_0 : S20000x64.Transposes [1, 0] S64x20000
  bcast_S20000_S1x20000_1 : S20000.BroadcastsInDim S1x20000 (![1] : Fin 1 → Fin S1x20000.rank)
  bcast_S1x20000_S4096x20000_0_1 : S1x20000.BroadcastsInDim S4096x20000 (![0, 1] : Fin 2 → Fin S4096x20000.rank)
  dot_S4096x20000_S20000x64_S4096x64_1_0_0_1_n_n_wf : DotDims.WF S4096x20000 S20000x64 S4096x64 [1] [0] [0] [1] [] []
  dot_S4096x64_S64x64_S4096x64_1_0_0_1_n_n_wf : DotDims.WF S4096x64 S64x64 S4096x64 [1] [0] [0] [1] [] []
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  dot_S4096x64_S64x20000_S4096x20000_1_0_0_1_n_n_wf : DotDims.WF S4096x64 S64x20000 S4096x20000 [1] [0] [0] [1] [] []

variable [Facts₀]

def dot_S4096x20000_S20000x64_S4096x64_1_0_0_1_n_n : DotDims S4096x20000 S20000x64 S4096x64 where
  lhsContracting := [1]
  rhsContracting := [0]
  lhsNonContracting := [0]
  rhsNonContracting := [1]
  lhsBatch := []
  rhsBatch := []
  wf := dot_S4096x20000_S20000x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x20000_S4096x20000_1_0_0_1_n_n : DotDims S4096x64 S64x20000 S4096x20000 where
  lhsContracting := [1]
  rhsContracting := [0]
  lhsNonContracting := [0]
  rhsNonContracting := [1]
  lhsBatch := []
  rhsBatch := []
  wf := dot_S4096x64_S64x20000_S4096x20000_1_0_0_1_n_n_wf

class Facts : Prop extends Facts₀ where

variable [Facts]
-- ==== Proof.K.R0Shared.lean ====
/- Region 0 on one grid row of eight reduction steps: which of the body's two guards hold at a grid point,
   as arithmetic on the point's position, and where the output window is idle. -/
import proofs.«132161_j53506702573937_1_alg».proof.Proof.Gen.Kernel.Launch
import proofs.«132161_j53506702573937_1_alg».proof.Proof.Gen.Kernel.Skeleton
import proofs.«132161_j53506702573937_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idleAt0_15 : ∀ t : Fin cfg0.N, ¬cond0_1 (grid0.coords t) → cfg0.idle 15 (grid0.coords t) = true := by decide +kernel
theorem noFlush0_15 : ∀ t : Fin cfg0.N, ¬cond0_1 (grid0.coords t) → (cfg0.win 15).flush t = false := by decide +kernel
theorem liveAt0_15 : ∀ t : Fin cfg0.N, cond0_1 (grid0.coords t) → cfg0.idle 15 (grid0.coords t) = false := by decide +kernel
theorem liveAt0_in : ∀ (w : Fin 16), w.val < 15 → ∀ t : Fin cfg0.N, cfg0.idle w (grid0.coords t) = false := by decide +kernel

abbrev VO0_15 : View sig .tc .vmem S512x64 .f32 := (Memref.whole cc0_stg15_0 : Memref sig .tc .vmem S512x64 .f32).view
abbrev scM0_0 : Memref sig .tc .vmem S512x64 .f32 := Memref.whole cc0_scratch0

theorem zeros1 : (![0] : Fin 1 → Nat) = fun _ => 0 := by
  funext a; match a with | ⟨0, _⟩ => rfl
theorem zeros2 : (![0, 0] : Fin 2 → Nat) = fun _ => 0 := by
  funext a; match a with | ⟨0, _⟩ => rfl | ⟨1, _⟩ => rfl

end Cert.Kernel.Hand

end
-- ==== Proof.K.EpiPay.lean ====
/- The epilogue of the last reduction step as one function of the finished accumulator and the resident weights,
   and the layer slices of the stacked weights it is fed with. -/
import proofs.«132161_j53506702573937_1_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

def epiPay (acc : Vec F S512x64 .f32) (inb : Vec F S64 .f32) (qW0 : Vec F S1x64x64 .f32) (qb0 : Vec F S1x64 .f32) (kW0 : Vec F S1x64x64 .f32) (kb0 : Vec F S1x64 .f32) (vW0 : Vec F S1x64x64 .f32) (vb0 : Vec F S1x64 .f32) (oW0 : Vec F S1x64x64 .f32) (ob0 : Vec F S1x64 .f32) (qW1 : Vec F S1x64x64 .f32) (qb1 : Vec F S1x64 .f32) (kW1 : Vec F S1x64x64 .f32) (kb1 : Vec F S1x64 .f32) (vW1 : Vec F S1x64x64 .f32) (vb1 : Vec F S1x64 .f32) (oW1 : Vec F S1x64x64 .f32) (ob1 : Vec F S1x64 .f32) (qW2 : Vec F S1x64x64 .f32) (qb2 : Vec F S1x64 .f32) (kW2 : Vec F S1x64x64 .f32) (kb2 : Vec F S1x64 .f32) (vW2 : Vec F S1x64x64 .f32) (vb2 : Vec F S1x64 .f32) (oW2 : Vec F S1x64x64 .f32) (ob2 : Vec F S1x64 .f32) (f1W : Vec F S128x64 .f32) (f1b : Vec F S128 .f32) (f2W : Vec F S64x128 .f32) (f2b : Vec F S64 .f32) : FVec F S512x64 .f32 :=
  let p4 := k0_pay4 acc inb
  let p6 := k0_pay6 acc inb vW0 vb0
  let p7 := k0_pay7 acc inb qW0 qb0 kW0 kb0
  let p8 := k0_pay8 p4 p6 p7 oW0 ob0
  let p9 := k0_pay9 p4 p6 p7 oW0 ob0
  let p10 := k0_pay10 p4 p6 p7 oW0 ob0 qW1 qb1
  let p11 := k0_pay11 p4 p6 p7 oW0 ob0 kW1 kb1
  let p12 := k0_pay12 vW1
  let p13 := k0_pay13 p8 p9 p10 p11 p12 vb1 oW1 ob1
  let p14 := k0_pay14 p8 p9 p10 p11 p12 vb1 oW1 ob1
  let p15 := k0_pay15 p8 p9 p10 p11 p12 vb1 oW1 ob1 qW2 qb2
  let p16 := k0_pay16 p8 p9 p10 p11 p12 vb1 oW1 ob1 kW2
  let p17 := k0_pay17 p13 p14 p15 p16 kb2 vW2 vb2 oW2 ob2
  let p18 := k0_pay18 p13 p14 p15 p16 kb2 vW2 vb2 oW2 ob2 f1W f1b
  k0_pay3 p17 p18 f2W f2b

def sl3 (x : Vec F S3x64x64 .f32) : Fin 3 → Vec F S1x64x64 .f32
  | 0 => View.ld x (Rect.unit (s := S3x64x64) ![0, 0, 0] S1x64x64.size inb_S3x64x64_S1x64x64_0_0_0)
  | 1 => View.ld x (Rect.unit (s := S3x64x64) ![1, 0, 0] S1x64x64.size inb_S3x64x64_S1x64x64_1_0_0)
  | 2 => View.ld x (Rect.unit (s := S3x64x64) ![2, 0, 0] S1x64x64.size inb_S3x64x64_S1x64x64_2_0_0)

def sl2 (x : Vec F S3x64 .f32) : Fin 3 → Vec F S1x64 .f32
  | 0 => View.ld x (Rect.unit (s := S3x64) ![0, 0] S1x64.size inb_S3x64_S1x64_0_0)
  | 1 => View.ld x (Rect.unit (s := S3x64) ![1, 0] S1x64.size inb_S3x64_S1x64_1_0)
  | 2 => View.ld x (Rect.unit (s := S3x64) ![2, 0] S1x64.size inb_S3x64_S1x64_2_0)

end Cert.Kernel.Hand

end
-- ==== Proof.K.R0Run.lean ====
/- The body at the three kinds of step of a grid row. A first step leaves the accumulator at zero plus the product of the
   two streamed blocks, a later step at what it held plus that product; the last step also leaves the output block at the
   epilogue of the finished accumulator and the resident weights. -/
import proofs.«132161_j53506702573937_1_alg».proof.Proof.K.R0Shared
import proofs.«132161_j53506702573937_1_alg».proof.Proof.K.EpiPay

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords} {arg2 : Memref sig .tc .vmem S512x2560 .f32} {harg2 : arg2.IsWhole} {arg3 : Memref sig .tc .vmem S64x2560 .f32} {harg3 : arg3.IsWhole} {arg4 : Memref sig .tc .vmem S64 .f32} {harg4 : arg4.IsWhole} {arg5 : Memref sig .tc .vmem S3x64x64 .f32} {harg5 : arg5.IsWhole} {arg6 : Memref sig .tc .vmem S3x64 .f32} {harg6 : arg6.IsWhole} {arg7 : Memref sig .tc .vmem S3x64x64 .f32} {harg7 : arg7.IsWhole} {arg8 : Memref sig .tc .vmem S3x64 .f32} {harg8 : arg8.IsWhole} {arg9 : Memref sig .tc .vmem S3x64x64 .f32} {harg9 : arg9.IsWhole} {arg10 : Memref sig .tc .vmem S3x64 .f32} {harg10 : arg10.IsWhole} {arg11 : Memref sig .tc .vmem S3x64x64 .f32} {harg11 : arg11.IsWhole} {arg12 : Memref sig .tc .vmem S3x64 .f32} {harg12 : arg12.IsWhole} {arg13 : Memref sig .tc .vmem S128x64 .f32} {harg13 : arg13.IsWhole} {arg14 : Memref sig .tc .vmem S128 .f32} {harg14 : arg14.IsWhole} {arg15 : Memref sig .tc .vmem S64x128 .f32} {harg15 : arg15.IsWhole} {arg16 : Memref sig .tc .vmem S64 .f32} {harg16 : arg16.IsWhole} {arg17 : Memref sig .tc .vmem S512x64 .f32} {harg17 : arg17.IsWhole} {arg18 : Memref sig .tc .vmem S512x64 .f32} {harg18 : arg18.IsWhole} {E : Set ℕ}
  {K : PUnit → sProp (MT nD τ sig Unit (Elt F) ℕ (UR sig nD τ) ℕ)}

-- Owning a whole memref at x is holding its buffer at the contents that read as x.
theorem owns_unread {s : Shape} {m : Memref sig .tc .vmem s .f32} (hm : m.IsWhole) {c : Dev nD} {x : Vec F s .f32} :
    (owns (c : Thread nD τ) m fullShare x : sProp 𝕄) = (m.view.loc (c : Thread nD τ) ↦[m.view.set]{fullShare} hm.unread x) := by
  have h₁ : (owns (c : Thread nD τ) m fullShare x : sProp 𝕄) ⊢ (m.view.loc (c : Thread nD τ) ↦[m.view.set]{fullShare} hm.unread x) := by
    unfold owns; iintro ⟨%f, %hf, H⟩; obtain rfl := hm.eq_unread hf; iexact H
  have h₂ : (m.view.loc (c : Thread nD τ) ↦[m.view.set]{fullShare} hm.unread x : sProp 𝕄) ⊢ owns (c : Thread nD τ) m fullShare x := by
    unfold owns; iintro H; iexists _; isplitr; · ipureintro; exact hm.read_unread _
    iexact H
  exact BI.equiv_iff.mp ⟨h₁, h₂⟩

theorem kernelRun0_A (hc0 : cond0_0 i) (hc1 : ¬cond0_1 i) {x0 : Vec F S512x2560 .f32} {x1 : Vec F S64x2560 .f32} :
    iprop(owns (c : Thread nD τ) arg2 fullShare x0 ∗ owns (c : Thread nD τ) arg3 fullShare x1 ∗ (∃ d, owns (c : Thread nD τ) arg18 fullShare d)
        ∗ (iprop(owns (c : Thread nD τ) arg2 fullShare x0 ∗ owns (c : Thread nD τ) arg3 fullShare x1 ∗ owns (c : Thread nD τ) arg18 fullShare (k0_pay2 x0 x1 k0_pay1)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_a_eq_skeleton]; unfold cc0__kernel_a_skel
  simp (disch := assumption) only [owns_unread]
  iintro ⟨H0, H1, ⟨%d, HS0⟩, Hk⟩
  sl_exec (disch := first | exact hc0 | exact hc1)
  sl_step
  iapply Hk
  iframe H0 H1
  rw [← owns_unread harg18]; unfold owns
  iexists _; isplitr
  swap; · iexact HS0
  ipureintro
  refine (View.read_writes_eq_canon _ _ _ (View.cover_of_tiledL _ S512x64.size (by sl_kernel_rfl))).trans ?_
  sl_unfold_words
  rw [View.canon_cons_unit_zero (S := S512x64) zeros2]
  simp only [View.readAt_eq_ld, harg2.read_unread, harg3.read_unread, View.readCov_unit_zero (S := S512x64) _ zeros2,
    View.ld_unit_zero (S := S512x2560) zeros2, View.ld_unit_zero (S := S64x2560) zeros2]

theorem kernelRun0_B (hc0 : ¬cond0_0 i) (hc1 : ¬cond0_1 i) {x0 : Vec F S512x2560 .f32} {x1 : Vec F S64x2560 .f32} {xs0 : Vec F S512x64 .f32} :
    iprop(owns (c : Thread nD τ) arg2 fullShare x0 ∗ owns (c : Thread nD τ) arg3 fullShare x1 ∗ owns (c : Thread nD τ) arg18 fullShare xs0
        ∗ (iprop(owns (c : Thread nD τ) arg2 fullShare x0 ∗ owns (c : Thread nD τ) arg3 fullShare x1 ∗ owns (c : Thread nD τ) arg18 fullShare (k0_pay2 x0 x1 xs0)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_a_eq_skeleton]; unfold cc0__kernel_a_skel
  simp (disch := assumption) only [owns_unread]
  iintro ⟨H0, H1, HS0, Hk⟩
  sl_exec (disch := first | exact hc0 | exact hc1)
  sl_step
  iapply Hk
  iframe H0 H1
  rw [← owns_unread harg18]; unfold owns
  iexists _; isplitr
  swap; · iexact HS0
  ipureintro
  refine (View.read_writes_eq_canon _ _ _ (View.cover_of_tiledL _ S512x64.size (by sl_kernel_rfl))).trans ?_
  sl_unfold_words
  rw [View.canon_unit_zero zeros2]
  simp only [View.readAt_eq_ld, harg2.read_unread, harg3.read_unread, harg18.read_unread,
    View.ld_unit_zero (S := S512x2560) zeros2, View.ld_unit_zero (S := S64x2560) zeros2, View.ld_unit_zero (S := S512x64) zeros2]

theorem kernelRun0_C (hc0 : ¬cond0_0 i) (hc1 : cond0_1 i)
    {x0 : Vec F S512x2560 .f32} {x1 : Vec F S64x2560 .f32} {x2 : Vec F S64 .f32} {x3 : Vec F S3x64x64 .f32} {x4 : Vec F S3x64 .f32} {x5 : Vec F S3x64x64 .f32} {x6 : Vec F S3x64 .f32} {x7 : Vec F S3x64x64 .f32} {x8 : Vec F S3x64 .f32} {x9 : Vec F S3x64x64 .f32} {x10 : Vec F S3x64 .f32} {x11 : Vec F S128x64 .f32} {x12 : Vec F S128 .f32} {x13 : Vec F S64x128 .f32} {x14 : Vec F S64 .f32} {xs0 : Vec F S512x64 .f32} :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (epiPay (k0_pay2 x0 x1 xs0) x2 (sl3 x3 0) (sl2 x4 0) (sl3 x5 0) (sl2 x6 0) (sl3 x7 0) (sl2 x8 0) (sl3 x9 0) (sl2 x10 0) (sl3 x3 1) (sl2 x4 1) (sl3 x5 1) (sl2 x6 1) (sl3 x7 1) (sl2 x8 1) (sl3 x9 1) (sl2 x10 1) (sl3 x3 2) (sl2 x4 2) (sl3 x5 2) (sl2 x6 2) (sl3 x7 2) (sl2 x8 2) (sl3 x9 2) (sl2 x10 2) x11 x12 x13 x14) ∗ owns (c : Thread nD τ) arg18 fullShare (k0_pay2 x0 x1 xs0)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_a_eq_skeleton]; unfold cc0__kernel_a_skel
  simp (disch := assumption) only [owns_unread]
  iintro ⟨H0, H1, H2, H3, H4, H5, H6, H7, H8, H9, H10, H11, H12, H13, H14, ⟨%d, H15⟩, HS0, Hk⟩
  sl_exec (disch := first | exact hc0 | exact hc1)
  sl_step
  iapply Hk
  iframe H0 H1 H2 H3 H4 H5 H6 H7 H8 H9 H10 H11 H12 H13 H14
  rw [← owns_unread harg17, ← owns_unread harg18]; unfold owns
  isplitl [H15]
  · iexists _; isplitr
    swap; · iexact H15
    ipureintro
    refine (View.read_writes_eq_canon _ _ _ (View.cover_of_tiledL _ S512x64.size (by sl_kernel_rfl))).trans ?_
    sl_unfold_words
    rw [View.canon_unit_zero zeros2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread,
      View.readCov_unit_zero (S := S512x64) _ zeros2,
      View.ld_unit_zero (S := S512x2560) zeros2, View.ld_unit_zero (S := S64x2560) zeros2, View.ld_unit_zero (S := S512x64) zeros2,
      View.ld_unit_zero (S := S64) zeros1, View.ld_unit_zero (S := S128) zeros1, View.ld_unit_zero (S := S128x64) zeros2, View.ld_unit_zero (S := S64x128) zeros2]
    unfold epiPay
    simp only [sl3, sl2]
  iexists _; isplitr
  swap; · iexact HS0
  ipureintro
  refine (View.read_writes_eq_canon _ _ _ (View.cover_of_tiledL _ S512x64.size (by sl_kernel_rfl))).trans ?_
  sl_unfold_words
  rw [View.canon_unit_zero zeros2]
  simp only [View.readAt_eq_ld, harg2.read_unread, harg3.read_unread, harg18.read_unread,
    View.ld_unit_zero (S := S512x2560) zeros2, View.ld_unit_zero (S := S64x2560) zeros2, View.ld_unit_zero (S := S512x64) zeros2]

end Cert.Kernel.Hand

end
-- ==== Proof.K.R0Dat.lean ====
/- Region 0's proof data: along a grid row the accumulator after step k is the sum of the first k+1 partial
   products, and the output block is the epilogue of the finished accumulator, written at step 7. -/
import proofs.«132161_j53506702573937_1_alg».proof.Proof.K.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

def idle15 : Vec F S512x64 .f32 := VO0_15.read (Elt F) VO0_15.junk

def epiAt0 (c : Dev nD) (t : Fin cfg0.N) (acc : Vec F S512x64 .f32) : Vec F S512x64 .f32 :=
  epiPay acc (iblk0 V c 2 t) (sl3 (iblk0 V c 3 t) 0) (sl2 (iblk0 V c 4 t) 0) (sl3 (iblk0 V c 5 t) 0) (sl2 (iblk0 V c 6 t) 0) (sl3 (iblk0 V c 7 t) 0) (sl2 (iblk0 V c 8 t) 0) (sl3 (iblk0 V c 9 t) 0) (sl2 (iblk0 V c 10 t) 0) (sl3 (iblk0 V c 3 t) 1) (sl2 (iblk0 V c 4 t) 1) (sl3 (iblk0 V c 5 t) 1) (sl2 (iblk0 V c 6 t) 1) (sl3 (iblk0 V c 7 t) 1) (sl2 (iblk0 V c 8 t) 1) (sl3 (iblk0 V c 9 t) 1) (sl2 (iblk0 V c 10 t) 1) (sl3 (iblk0 V c 3 t) 2) (sl2 (iblk0 V c 4 t) 2) (sl3 (iblk0 V c 5 t) 2) (sl2 (iblk0 V c 6 t) 2) (sl3 (iblk0 V c 7 t) 2) (sl2 (iblk0 V c 8 t) 2) (sl3 (iblk0 V c 9 t) 2) (sl2 (iblk0 V c 10 t) 2) (iblk0 V c 11 t) (iblk0 V c 12 t) (iblk0 V c 13 t) (iblk0 V c 14 t)

-- What the output block and the accumulator hold after the body at position n.
def outsAt0 (c : Dev nD) : (n : ℕ) → n < cfg0.N → Vec F S512x64 .f32 × Vec F S512x64 .f32
  | 0, hn => (idle15, k0_pay2 (iblk0 V c 0 ⟨0, hn⟩) (iblk0 V c 1 ⟨0, hn⟩) k0_pay1)
  | n + 1, hn =>
    let acc := k0_pay2 (iblk0 V c 0 ⟨n + 1, hn⟩) (iblk0 V c 1 ⟨n + 1, hn⟩) (if (n + 1) % 8 = 0 then k0_pay1 else (outsAt0 c n (Nat.lt_of_succ_lt hn)).2)
    (if (n + 1) % 8 = 7 then epiAt0 V c ⟨n + 1, hn⟩ acc else idle15, acc)

theorem outsAt0_A (c : Dev nD) (t : Fin cfg0.N) (h0 : t.val % 8 = 0) (h1 : ¬t.val % 8 = 7) :
    outsAt0 V c t.val t.isLt = (idle15, k0_pay2 (iblk0 V c 0 t) (iblk0 V c 1 t) k0_pay1) := by
  obtain ⟨_ | n, hn⟩ := t
  · rfl
  · show (if (n + 1) % 8 = 7 then _ else _, k0_pay2 _ _ (if (n + 1) % 8 = 0 then _ else _)) = _
    rw [if_pos h0, if_neg h1]

theorem outsAt0_B (c : Dev nD) (t : Fin cfg0.N) (h0 : ¬t.val % 8 = 0) (h1 : ¬t.val % 8 = 7) :
    outsAt0 V c t.val t.isLt = (idle15, k0_pay2 (iblk0 V c 0 t) (iblk0 V c 1 t) (outsAt0 V c (t.val - 1) (Nat.lt_of_le_of_lt (Nat.sub_le _ _) t.isLt)).2) := by
  obtain ⟨_ | n, hn⟩ := t
  · exact absurd (Nat.zero_mod _) h0
  · show (if (n + 1) % 8 = 7 then _ else _, k0_pay2 _ _ (if (n + 1) % 8 = 0 then _ else _)) = _
    rw [if_neg h0, if_neg h1]; rfl

theorem outsAt0_C (c : Dev nD) (t : Fin cfg0.N) (h0 : ¬t.val % 8 = 0) (h1 : t.val % 8 = 7) :
    outsAt0 V c t.val t.isLt = (epiAt0 V c t (k0_pay2 (iblk0 V c 0 t) (iblk0 V c 1 t) (outsAt0 V c (t.val - 1) (Nat.lt_of_le_of_lt (Nat.sub_le _ _) t.isLt)).2), k0_pay2 (iblk0 V c 0 t) (iblk0 V c 1 t) (outsAt0 V c (t.val - 1) (Nat.lt_of_le_of_lt (Nat.sub_le _ _) t.isLt)).2) := by
  obtain ⟨_ | n, hn⟩ := t
  · exact absurd (Nat.zero_mod _) h0
  · show (if (n + 1) % 8 = 7 then _ else _, k0_pay2 _ _ (if (n + 1) % 8 = 0 then _ else _)) = _
    rw [if_neg h0, if_pos h1]; rfl

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ other0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ other0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_15 (c : Dev nD) (t : Fin cfg0.N) : (dat0 V c).after 15 t = (outsAt0 V c t.val t.isLt).1 := by dsimp only [dat0]

theorem before0 (c : Dev nD) (w : Fin 16) (hw : w.val < 15) (t : Fin cfg0.N) (d) : (dat0 V c).before w t d = (dat0 V c).after w t := by
  obtain ⟨n, hn⟩ := w
  iterate 15 (rcases n with _ | n; · exact ((dat0 V c).before_in_eq_fetched _ rfl (fun _ => rfl) (fun _ _ _ => rfl) (fun _ => rfl) t d).trans rfl)
  exact absurd hw (by simp)

theorem leaves0 (c : Dev nD) (w : Fin 16) (hw : w.val < 15) (t : Fin cfg0.N) :
    (dat0 V c).leavesExact w t = owns (c : Thread nD τ) ((cfg0.win w).stage (cfg0.slots t w)) fullShare ((dat0 V c).after w t) := by
  unfold Dat.leavesExact; rw [liveAt0_in w hw t]

theorem PhiS_any (c : Dev nD) (n : ℕ) (h : n ≤ cfg0.N) : PhiS V c n h ⊢ Pipeline.ΦA spec0 c := by
  cases n with
  | zero => exact .rfl
  | succ n =>
    rw [PhiS_succ, PhiA0_eq]
    iintro ⟨⟨HS0, Hoth⟩, Hg⟩
    iframe Hoth Hg
    iexists _; iexact HS0

def bodyPre0 (c : Dev nD) (t : Fin cfg0.N) : sProp 𝕄 :=
  let P (w : Fin 16) : sProp 𝕄 := iprop(∃ d, owns (c : Thread nD τ) ((cfg0.win w).stage (cfg0.slots t w)) fullShare ((dat0 V c).before w t d))
  iprop((dat0 V c).Φ t.castSucc ∗ (dat0 V c).owesAt () t.castSucc
    ∗ P 0 ∗ P 1 ∗ P 2 ∗ P 3 ∗ P 4 ∗ P 5 ∗ P 6 ∗ P 7 ∗ P 8 ∗ P 9 ∗ P 10 ∗ P 11 ∗ P 12 ∗ P 13 ∗ P 14 ∗ P 15)

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp (disch := decide) only [before0 V c, leaves0 V c]
  rw [show (dat0 V c).owesAt () t.succ = (dat0 V c).owesAt () t.castSucc from rfl,
    show (dat0 V c).Φ t.succ = PhiS V c (t.val + 1) t.isLt from rfl, PhiS_succ, PhiS_castSucc]
  by_cases h1 : t.val % 8 = 7
  · have h0 : ¬t.val % 8 = 0 := by omega
    rw [show (dat0 V c).leavesExact 15 t = owns (c : Thread nD τ) (st0_15 t) fullShare ((dat0 V c).after 15 t) from by
      unfold Dat.leavesExact; rw [liveAt0_15 t ((hcond0_1 t).mpr h1)], after0_15, outsAt0_C V c t h0 h1, PhiS_pos V c _ _ (by omega)]
    dsimp only [dat0]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (kernelRun0_C (fun h => h0 ((hcond0_0 t).mp h)) ((hcond0_1 t).mpr h1))
    iframe H0 H1 H2 H3 H4 H5 H6 H7 H8 H9 H10 H11 H12 H13 H14 HS0
    isplitl [H15]; · iexists _; iexact H15
    iintro ⟨H0, H1, H2, H3, H4, H5, H6, H7, H8, H9, H10, H11, H12, H13, H14, H15, HS0⟩
    iframe Hoth Hg Ho H0 H1 H2 H3 H4 H5 H6 H7 H8 H9 H10 H11 H12 H13 H14
    isplitl [HS0]; · iexact HS0
    iexact H15
  · rw [Dat.leavesExact_idle (dat0 V c) 15 t (idleAt0_15 t (fun h => h1 ((hcond0_1 t).mp h))) (noFlush0_15 t (fun h => h1 ((hcond0_1 t).mp h)))]
    by_cases h0 : t.val % 8 = 0
    · rw [outsAt0_A V c t h0 h1]
      refine (sep_mono_left (PhiS_any V c _ _)).trans ?_
      rw [PhiA0_eq]
      dsimp only [dat0]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
      iapply (kernelRun0_A ((hcond0_0 t).mpr h0) (fun h => h1 ((hcond0_1 t).mp h)))
      iframe H0 H1 HS0
      iintro ⟨H0, H1, HS0⟩
      iframe Hoth Hg Ho H0 H1 H2 H3 H4 H5 H6 H7 H8 H9 H10 H11 H12 H13 H14 H15
      iexact HS0
    · rw [outsAt0_B V c t h0 h1, PhiS_pos V c _ _ (by omega)]
      dsimp only [dat0]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
      iapply (kernelRun0_B (fun h => h0 ((hcond0_0 t).mp h)) (fun h => h1 ((hcond0_1 t).mp h)))
      iframe H0 H1 HS0
      iintro ⟨H0, H1, HS0⟩
      iframe Hoth Hg Ho H0 H1 H2 H3 H4 H5 H6 H7 H8 H9 H10 H11 H12 H13 H14 H15
      iexact HS0

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := PhiS_any V c cfg0.N le_rfl

end R0

end Cert.Kernel.Hand

end
-- ==== Proof.K.R1Body.lean ====
/-
  Region 1, the output projection: at each grid point the body stores  h block · (weight block)ᵀ + bias row  over
  the whole output block.  Its proof data and body obligation, at the buffer contents V found on entry.
-/
import proofs.«132161_j53506702573937_1_alg».proof.Proof.Gen.Kernel.Launch
import proofs.«132161_j53506702573937_1_alg».proof.Proof.Gen.Kernel.Skeleton
import proofs.«132161_j53506702573937_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The block of window w's array that point t addresses, at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem z2 : (![0, 0] : Fin 2 → Nat) = fun _ => 0 := by decide

/-- The body's triple on whole buffers: each load reads its buffer's contents and the one store covers the output. -/
theorem sound_kernel1 (c : Dev nD) (E : Set ℕ) (i : grid1.Coords)
    (arg2 : Memref sig .tc .vmem S512x64 .f32) (harg2 : arg2.IsWhole) (arg3 : Memref sig .tc .vmem S2560x64 .f32) (harg3 : arg3.IsWhole)
    (arg4 : Memref sig .tc .vmem S1x2560 .f32) (harg4 : arg4.IsWhole) (arg5 : Memref sig .tc .vmem S512x2560 .f32) (harg5 : arg5.IsWhole)
    (x0 : Vec F S512x64 .f32) (x1 : Vec F S2560x64 .f32) (x2 : Vec F S1x2560 .f32) (d) (K : PUnit → sProp 𝕄) :
    iprop(owns c.tc arg2 fullShare x0 ∗ owns c.tc arg3 fullShare x1 ∗ owns c.tc arg4 fullShare x2
        ∗ owns c.tc arg5 fullShare d
        ∗ (iprop(owns c.tc arg2 fullShare x0 ∗ owns c.tc arg3 fullShare x1 ∗ owns c.tc arg4 fullShare x2
            ∗ owns c.tc arg5 fullShare (k1_pay1 x0 x1 x2)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%f3, -, H3⟩, Hk⟩
  subst hf0; subst hf1; subst hf2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact H3
  ipureintro
  rw [View.read_writes_eq_canon _ _ _ fun y => ⟨_, List.mem_singleton_self _, View.mem_set_unit_zero z2 inb_S512x2560_S512x2560_0_0 y⟩, View.canon_unit_zero z2]
  exact congr (congr (congrArg k1_pay1 (View.ld_unit_zero (S := S512x64) z2 _ _)) (View.ld_unit_zero (S := S2560x64) z2 _ _)) (View.ld_unit_zero (S := S1x2560) z2 _ _)

/-- Proof data: the inputs keep their blocks, the output block becomes the payload of the three input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

/-- The triple applies at every point, each input buffer holding its block there; invariant and debt are framed around it. -/
theorem body_obligation1 (c : Dev nD) : BodyObligation (dat1 (F := F) V c) (defs₀ (F := F)) Variants.none () Set.univ := fun t => by
  rw [bigSep_W1, bigSep_W1]
  simp only [(dat1 V c).before_in_eq_fetched 0 rfl (fun _ => rfl) (fun _ _ _ => rfl) fun _ => rfl,
    (dat1 V c).before_in_eq_fetched 1 rfl (fun _ => rfl) (fun _ _ _ => rfl) fun _ => rfl,
    (dat1 V c).before_in_eq_fetched 2 rfl (fun _ => rfl) (fun _ _ _ => rfl) fun _ => rfl]
  show _ ⊢ wp _ _ _ (bodyAt1 t) _
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩, ⟨%d3, H3⟩⟩
  iapply (sound_kernel1 c Set.univ _ _ _ _ _ _ _ _ _ _ _ _ _ _)
  iframe
  iintro H
  iexact H

end Region1

end Cert.Kernel.Hand

end
-- ==== Proof.K.Whole.lean ====
/-
  @main as a list of items: nine host stretches, two kernel regions, a closing slice. Between items each core holds
  every unscoped buffer at a known valuation, and a region changes only its windows' arrays; so a buffer that no item
  writes ends as launched, and the result buffer ends as the slice of what the second region wrote.
-/
import proofs.«132161_j53506702573937_1_alg».proof.Proof.K.R0Dat
import proofs.«132161_j53506702573937_1_alg».proof.Proof.K.R1Body
import proofs.«132161_j53506702573937_1_alg».proof.Proof.Gen.Kernel.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
/-- Beside the buffers every item carries the generator register and the fact that the core owes nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

abbrev Ve0 : (c : Dev nD) → (b : Ref sig .tc) → Buf (Elt F) ((c : Thread nD τ).loc b) := fun c b => Gen.V9 m c b
/-- The valuation after region 0: its arrays at their final contents, every other buffer as entered. -/
def W10 (c : Dev nD) : Valuation τ sig (Elt F) :=
  Pipeline.withArrays spec0 c (Gen.V9 m c) fun w => (dat0 (Ve0 m) c).arrAt w cfg0.N
theorem W10_arr (c : Dev nD) (w : Fin cfg0.W) :
    W10 m c (Proc.devRef .tc (Pipeline.arrRef spec0 w)) = (dat0 (Ve0 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = Gen.V9 m c (Proc.devRef .tc b) := by
  unfold W10; exact Pipeline.withArrays_of_ne spec0 c _ _ b hb
/-- Region 0 leaves as entered every input window's array and every buffer that is no array of its. -/
theorem W10_keep (c : Dev nD) (b : Ref sig .tc) (h : ∀ w, Pipeline.arrRef spec0 w = b → (cfg0.win w).isOut = false) :
    W10 m c (Proc.devRef .tc b) = Gen.V9 m c (Proc.devRef .tc b) := by
  by_cases hw : ∃ w, Pipeline.arrRef spec0 w = b
  · obtain ⟨w, rfl⟩ := hw
    exact (W10_arr m c w).trans (((dat0 (Ve0 m) c).arrAt_in w (h w rfl) _).trans (A_eq0 (Ve0 m) c w))
  · exact W10_of_ne m c b fun w e => hw ⟨w, e⟩

abbrev Ve1 : (c : Dev nD) → (b : Ref sig .tc) → Buf (Elt F) ((c : Thread nD τ).loc b) := fun c b => W10 m c b
/-- The valuation after region 1. -/
def W11 (c : Dev nD) : Valuation τ sig (Elt F) :=
  Pipeline.withArrays spec1 c (W10 m c) fun w => (dat1 (Ve1 m) c).arrAt w cfg1.N
theorem W11_arr (c : Dev nD) (w : Fin cfg1.W) :
    W11 m c (Proc.devRef .tc (Pipeline.arrRef spec1 w)) = (dat1 (Ve1 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
/-- The valuation after the closing slice. -/
abbrev W12 (c : Dev nD) : Valuation τ sig (Elt F) := StableHlo.after hostOps2 (W11 m c)

/-- An unscoped buffer that no host stretch writes, no array of region 1, and of region 0 at most an input window's. -/
abbrev Kept (b : Ref sig .tc) : Prop :=
  ¬ (Proc.devRef .tc b : DevRef τ sig).isScoped ∧ b ∉ Gen.hostOps2_W ∧ (∀ w, Pipeline.arrRef spec1 w ≠ b)
    ∧ (∀ w, Pipeline.arrRef spec0 w = b → (cfg0.win w).isOut = false)
    ∧ b ∉ Gen.hostOps0_8_W ∧ b ∉ Gen.hostOps0_7_W ∧ b ∉ Gen.hostOps0_6_W ∧ b ∉ Gen.hostOps0_5_W ∧ b ∉ Gen.hostOps0_4_W
    ∧ b ∉ Gen.hostOps0_3_W ∧ b ∉ Gen.hostOps0_2_W ∧ b ∉ Gen.hostOps0_1_W ∧ b ∉ Gen.hostOps0_W

/-- Such a buffer ends as launched: each item in turn leaves it as it found it. -/
theorem W12_kept (c : Dev nD) (b : Ref sig .tc) (h : Kept b) : W12 m c (Proc.devRef .tc b) = m ((c : Thread nD τ).loc b) := by
  obtain ⟨-, h12, h11, h10, h9, h8, h7, h6, h5, h4, h3, h2, h1⟩ := h
  exact (StableHlo.after_of_writes_sub hostOps2 _ Gen.hostOps2_writes h12).trans <| (W11_of_ne m c b h11).trans <|
    (W10_keep m c b h10).trans <| (Gen.V9_of m c b h9).trans <| (Gen.V8_of m c b h8).trans <| (Gen.V7_of m c b h7).trans <|
    (Gen.V6_of m c b h6).trans <| (Gen.V5_of m c b h5).trans <| (Gen.V4_of m c b h4).trans <| (Gen.V3_of m c b h3).trans <|
    (Gen.V2_of m c b h2).trans <| (Gen.V1_of m c b h1).trans rfl

def pdats : (p : Fin 2) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region `p` over the thread state: entered with every unscoped buffer at `V`, left with them at `V'`, which has the
    region's arrays at their final contents and is `V` elsewhere. -/
def regAt (p : Fin 2) (lf : Pipeline.LaunchFacts (nD := nD) (τ := τ) cfgs p) (V V' : (c : Dev nD) → Valuation τ sig (Elt F))
    (hb : ∀ c, BodyObligation (pdats m p c) (defs₀ (F := F)) 𝒱₀ () Set.univ)
    (hq : ∀ c w, (pdats m p c).q w = fullShare) (h0 : ∀ c t, (pdats m p c).owed t = 0)
    (hr : ∀ c, (pdats m p c).recorded 0 = Set.univ)
    (hA : ∀ c w, (pdats m p c).A w = V c (Pipeline.arrRef (cfgs p).spec w))
    (hF : ∀ c w, (pdats m p c).arrAt w (cfgs p).N = V' c (Pipeline.arrRef (cfgs p).spec w))
    (hrest : ∀ c b, b ∉ Finset.univ.image (Pipeline.arrRef (cfgs p).spec) → V' c b = V c b)
    (hi : ∀ c, Pipeline.ΦA (cfgs p).spec c ⊢ (pdats m p c).Φ 0)
    (ho : ∀ c, (pdats m p c).Φ (Fin.last (cfgs p).N) ⊢ Pipeline.ΦA (cfgs p).spec c) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) Gen.adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

set_option backward.isDefEq.respectTransparency.types false in
def reg0 : Pipeline.RegionSeg (pcfgs (F := F)) Gen.adm (pdats m) () defs₀ 𝒱₀ L lv 0 :=
  regAt m 0 launch0 (Gen.V9 m) (W10 m) (body_obligation0 (Ve0 m)) (fun _ _ => rfl) (fun _ _ => rfl) (fun _ => rfl) (fun _ _ => rfl)
    (fun c w => (W10_arr m c w).symm) (fun c b hb => W10_of_ne m c b fun w e => hb (Finset.mem_image.mpr ⟨w, Finset.mem_univ _, e⟩))
    (hin0 (Ve0 m)) (hout0 (Ve0 m))

set_option backward.isDefEq.respectTransparency.types false in
def reg1 : Pipeline.RegionSeg (pcfgs (F := F)) Gen.adm (pdats m) () defs₀ 𝒱₀ L lv 1 :=
  regAt m 1 launch1 (W10 m) (W11 m) (body_obligation1 (Ve1 m)) (fun _ _ => rfl) (fun _ _ => rfl) (fun _ => rfl) (fun _ _ => rfl)
    (fun c w => (W11_arr m c w).symm) (fun c b hb => W11_of_ne m c b fun w e => hb (Finset.mem_image.mpr ⟨w, Finset.mem_univ _, e⟩))
    (fun _ => .rfl) (fun _ => .rfl)

def segLast : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp Gen.hostOps2_fresh) op h) (W11 m) (E 2)

abbrev segs (c : Dev nD) : List (Seg (pcfgs (F := F)) Gen.adm (pdats m) () defs₀ 𝒱₀ L lv) :=
  [.host (Gen.seg0 m 𝒱₀ L lv E), .host (Gen.seg1 m 𝒱₀ L lv E), .host (Gen.seg2 m 𝒱₀ L lv E), .host (Gen.seg3 m 𝒱₀ L lv E), .host (Gen.seg4 m 𝒱₀ L lv E), .host (Gen.seg5 m 𝒱₀ L lv E), .host (Gen.seg6 m 𝒱₀ L lv E), .host (Gen.seg7 m 𝒱₀ L lv E), .host (Gen.seg8 m 𝒱₀ L lv E), .region (reg0 m), .region (reg1 m), .host (segLast m)]

set_option backward.isDefEq.respectTransparency.types false in
/-- Every weakly fair execution of @main terminates; the result buffer then holds the slice of what region 1 left, every kept buffer its launch contents. -/
theorem run_result : θ_run defs (onTc (τ := τ) (main (F := F))) ⟨m, fun _ => 0, ρ⟩ (fun r => ∀ c : Dev nD,
      r.2.mem ((c.tc : Thread nD τ).loc main_v7) = W12 m c (Proc.devRef .tc main_v7)
      ∧ ∀ b, Kept b → r.2.mem ((c.tc : Thread nD τ).loc b) = m ((c.tc : Thread nD τ).loc b)) := by
  refine Pipeline.θ_run_regions_kit_dev (pcfgs (F := F)) Gen.adm (pdats m) () cellOf_inj emb₁ defs₀ 𝒱₀ L lv m ρ main
    (segs m)
    (fun c Q => by
      rewrite [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W12 m c))
    (hch := fun c => ⟨.rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = W12 m c b)
    (hfin := fun c s' => ?_)
    (hQ := fun _ h c => ⟨h c _ (mem_uc main_v7 (by decide)), fun b hb => (h c _ (mem_uc b hb.1)).trans (W12_kept m c b hb)⟩)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (W12 m c) s')
    isplitl [Hh] <;> iassumption

end Cert.Kernel.Hand

end
-- ==== Proof.KI.R0Shared.lean ====
/- Region 0 on one grid row of eight reduction steps: which of the body's two guards hold at a grid point,
   as arithmetic on the point's position, and where the output window is idle. -/
import proofs.«132161_j53506702573937_1_alg».proof.Proof.Gen.KernelIdeal.Launch
import proofs.«132161_j53506702573937_1_alg».proof.Proof.Gen.KernelIdeal.Skeleton
import proofs.«132161_j53506702573937_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idleAt0_15 : ∀ t : Fin cfg0.N, ¬cond0_1 (grid0.coords t) → cfg0.idle 15 (grid0.coords t) = true := by decide +kernel
theorem noFlush0_15 : ∀ t : Fin cfg0.N, ¬cond0_1 (grid0.coords t) → (cfg0.win 15).flush t = false := by decide +kernel
theorem liveAt0_15 : ∀ t : Fin cfg0.N, cond0_1 (grid0.coords t) → cfg0.idle 15 (grid0.coords t) = false := by decide +kernel
theorem liveAt0_in : ∀ (w : Fin 16), w.val < 15 → ∀ t : Fin cfg0.N, cfg0.idle w (grid0.coords t) = false := by decide +kernel

abbrev VO0_15 : View sig .tc .vmem S512x64 .f32 := (Memref.whole cc0_stg15_0 : Memref sig .tc .vmem S512x64 .f32).view
abbrev scM0_0 : Memref sig .tc .vmem S512x64 .f32 := Memref.whole cc0_scratch0

theorem zeros1 : (![0] : Fin 1 → Nat) = fun _ => 0 := by
  funext a; match a with | ⟨0, _⟩ => rfl
theorem zeros2 : (![0, 0] : Fin 2 → Nat) = fun _ => 0 := by
  funext a; match a with | ⟨0, _⟩ => rfl | ⟨1, _⟩ => rfl

end Cert.KernelIdeal.Hand

end
-- ==== Proof.KI.EpiPay.lean ====
/- The epilogue of the last reduction step as one function of the finished accumulator and the resident weights,
   and the layer slices of the stacked weights it is fed with. -/
import proofs.«132161_j53506702573937_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

def epiPay (acc : Vec F S512x64 .f32) (inb : Vec F S64 .f32) (qW0 : Vec F S1x64x64 .f32) (qb0 : Vec F S1x64 .f32) (kW0 : Vec F S1x64x64 .f32) (kb0 : Vec F S1x64 .f32) (vW0 : Vec F S1x64x64 .f32) (vb0 : Vec F S1x64 .f32) (oW0 : Vec F S1x64x64 .f32) (ob0 : Vec F S1x64 .f32) (qW1 : Vec F S1x64x64 .f32) (qb1 : Vec F S1x64 .f32) (kW1 : Vec F S1x64x64 .f32) (kb1 : Vec F S1x64 .f32) (vW1 : Vec F S1x64x64 .f32) (vb1 : Vec F S1x64 .f32) (oW1 : Vec F S1x64x64 .f32) (ob1 : Vec F S1x64 .f32) (qW2 : Vec F S1x64x64 .f32) (qb2 : Vec F S1x64 .f32) (kW2 : Vec F S1x64x64 .f32) (kb2 : Vec F S1x64 .f32) (vW2 : Vec F S1x64x64 .f32) (vb2 : Vec F S1x64 .f32) (oW2 : Vec F S1x64x64 .f32) (ob2 : Vec F S1x64 .f32) (f1W : Vec F S128x64 .f32) (f1b : Vec F S128 .f32) (f2W : Vec F S64x128 .f32) (f2b : Vec F S64 .f32) : FVec F S512x64 .f32 :=
  let p4 := k0_pay4 acc inb
  let p6 := k0_pay6 acc inb vW0 vb0
  let p7 := k0_pay7 acc inb qW0 qb0 kW0 kb0
  let p8 := k0_pay8 p4 p6 p7 oW0 ob0
  let p9 := k0_pay9 p4 p6 p7 oW0 ob0
  let p10 := k0_pay10 p4 p6 p7 oW0 ob0 qW1 qb1
  let p11 := k0_pay11 p4 p6 p7 oW0 ob0 kW1 kb1
  let p12 := k0_pay12 vW1
  let p13 := k0_pay13 p8 p9 p10 p11 p12 vb1 oW1 ob1
  let p14 := k0_pay14 p8 p9 p10 p11 p12 vb1 oW1 ob1
  let p15 := k0_pay15 p8 p9 p10 p11 p12 vb1 oW1 ob1 qW2 qb2
  let p16 := k0_pay16 p8 p9 p10 p11 p12 vb1 oW1 ob1 kW2
  let p17 := k0_pay17 p13 p14 p15 p16 kb2 vW2 vb2 oW2 ob2
  let p18 := k0_pay18 p13 p14 p15 p16 kb2 vW2 vb2 oW2 ob2 f1W f1b
  k0_pay3 p17 p18 f2W f2b

def sl3 (x : Vec F S3x64x64 .f32) : Fin 3 → Vec F S1x64x64 .f32
  | 0 => View.ld x (Rect.unit (s := S3x64x64) ![0, 0, 0] S1x64x64.size inb_S3x64x64_S1x64x64_0_0_0)
  | 1 => View.ld x (Rect.unit (s := S3x64x64) ![1, 0, 0] S1x64x64.size inb_S3x64x64_S1x64x64_1_0_0)
  | 2 => View.ld x (Rect.unit (s := S3x64x64) ![2, 0, 0] S1x64x64.size inb_S3x64x64_S1x64x64_2_0_0)

def sl2 (x : Vec F S3x64 .f32) : Fin 3 → Vec F S1x64 .f32
  | 0 => View.ld x (Rect.unit (s := S3x64) ![0, 0] S1x64.size inb_S3x64_S1x64_0_0)
  | 1 => View.ld x (Rect.unit (s := S3x64) ![1, 0] S1x64.size inb_S3x64_S1x64_1_0)
  | 2 => View.ld x (Rect.unit (s := S3x64) ![2, 0] S1x64.size inb_S3x64_S1x64_2_0)

end Cert.KernelIdeal.Hand

end
-- ==== Proof.KI.R0Run.lean ====
/- The body at the three kinds of step of a grid row. A first step leaves the accumulator at zero plus the product of the
   two streamed blocks, a later step at what it held plus that product; the last step also leaves the output block at the
   epilogue of the finished accumulator and the resident weights. -/
import proofs.«132161_j53506702573937_1_alg».proof.Proof.KI.R0Shared
import proofs.«132161_j53506702573937_1_alg».proof.Proof.KI.EpiPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords} {arg2 : Memref sig .tc .vmem S512x2560 .f32} {harg2 : arg2.IsWhole} {arg3 : Memref sig .tc .vmem S64x2560 .f32} {harg3 : arg3.IsWhole} {arg4 : Memref sig .tc .vmem S64 .f32} {harg4 : arg4.IsWhole} {arg5 : Memref sig .tc .vmem S3x64x64 .f32} {harg5 : arg5.IsWhole} {arg6 : Memref sig .tc .vmem S3x64 .f32} {harg6 : arg6.IsWhole} {arg7 : Memref sig .tc .vmem S3x64x64 .f32} {harg7 : arg7.IsWhole} {arg8 : Memref sig .tc .vmem S3x64 .f32} {harg8 : arg8.IsWhole} {arg9 : Memref sig .tc .vmem S3x64x64 .f32} {harg9 : arg9.IsWhole} {arg10 : Memref sig .tc .vmem S3x64 .f32} {harg10 : arg10.IsWhole} {arg11 : Memref sig .tc .vmem S3x64x64 .f32} {harg11 : arg11.IsWhole} {arg12 : Memref sig .tc .vmem S3x64 .f32} {harg12 : arg12.IsWhole} {arg13 : Memref sig .tc .vmem S128x64 .f32} {harg13 : arg13.IsWhole} {arg14 : Memref sig .tc .vmem S128 .f32} {harg14 : arg14.IsWhole} {arg15 : Memref sig .tc .vmem S64x128 .f32} {harg15 : arg15.IsWhole} {arg16 : Memref sig .tc .vmem S64 .f32} {harg16 : arg16.IsWhole} {arg17 : Memref sig .tc .vmem S512x64 .f32} {harg17 : arg17.IsWhole} {arg18 : Memref sig .tc .vmem S512x64 .f32} {harg18 : arg18.IsWhole} {E : Set ℕ}
  {K : PUnit → sProp (MT nD τ sig Unit (Elt F) ℕ (UR sig nD τ) ℕ)}

-- Owning a whole memref at x is holding its buffer at the contents that read as x.
theorem owns_unread {s : Shape} {m : Memref sig .tc .vmem s .f32} (hm : m.IsWhole) {c : Dev nD} {x : Vec F s .f32} :
    (owns (c : Thread nD τ) m fullShare x : sProp 𝕄) = (m.view.loc (c : Thread nD τ) ↦[m.view.set]{fullShare} hm.unread x) := by
  have h₁ : (owns (c : Thread nD τ) m fullShare x : sProp 𝕄) ⊢ (m.view.loc (c : Thread nD τ) ↦[m.view.set]{fullShare} hm.unread x) := by
    unfold owns; iintro ⟨%f, %hf, H⟩; obtain rfl := hm.eq_unread hf; iexact H
  have h₂ : (m.view.loc (c : Thread nD τ) ↦[m.view.set]{fullShare} hm.unread x : sProp 𝕄) ⊢ owns (c : Thread nD τ) m fullShare x := by
    unfold owns; iintro H; iexists _; isplitr; · ipureintro; exact hm.read_unread _
    iexact H
  exact BI.equiv_iff.mp ⟨h₁, h₂⟩

theorem kernelRun0_A (hc0 : cond0_0 i) (hc1 : ¬cond0_1 i) {x0 : Vec F S512x2560 .f32} {x1 : Vec F S64x2560 .f32} :
    iprop(owns (c : Thread nD τ) arg2 fullShare x0 ∗ owns (c : Thread nD τ) arg3 fullShare x1 ∗ (∃ d, owns (c : Thread nD τ) arg18 fullShare d)
        ∗ (iprop(owns (c : Thread nD τ) arg2 fullShare x0 ∗ owns (c : Thread nD τ) arg3 fullShare x1 ∗ owns (c : Thread nD τ) arg18 fullShare (k0_pay2 x0 x1 k0_pay1)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_a_eq_skeleton]; unfold cc0__kernel_a_skel
  simp (disch := assumption) only [owns_unread]
  iintro ⟨H0, H1, ⟨%d, HS0⟩, Hk⟩
  sl_exec (disch := first | exact hc0 | exact hc1)
  sl_step
  iapply Hk
  iframe H0 H1
  rw [← owns_unread harg18]; unfold owns
  iexists _; isplitr
  swap; · iexact HS0
  ipureintro
  refine (View.read_writes_eq_canon _ _ _ (View.cover_of_tiledL _ S512x64.size (by sl_kernel_rfl))).trans ?_
  sl_unfold_words
  rw [View.canon_cons_unit_zero (S := S512x64) zeros2]
  simp only [View.readAt_eq_ld, harg2.read_unread, harg3.read_unread, View.readCov_unit_zero (S := S512x64) _ zeros2,
    View.ld_unit_zero (S := S512x2560) zeros2, View.ld_unit_zero (S := S64x2560) zeros2]

theorem kernelRun0_B (hc0 : ¬cond0_0 i) (hc1 : ¬cond0_1 i) {x0 : Vec F S512x2560 .f32} {x1 : Vec F S64x2560 .f32} {xs0 : Vec F S512x64 .f32} :
    iprop(owns (c : Thread nD τ) arg2 fullShare x0 ∗ owns (c : Thread nD τ) arg3 fullShare x1 ∗ owns (c : Thread nD τ) arg18 fullShare xs0
        ∗ (iprop(owns (c : Thread nD τ) arg2 fullShare x0 ∗ owns (c : Thread nD τ) arg3 fullShare x1 ∗ owns (c : Thread nD τ) arg18 fullShare (k0_pay2 x0 x1 xs0)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_a_eq_skeleton]; unfold cc0__kernel_a_skel
  simp (disch := assumption) only [owns_unread]
  iintro ⟨H0, H1, HS0, Hk⟩
  sl_exec (disch := first | exact hc0 | exact hc1)
  sl_step
  iapply Hk
  iframe H0 H1
  rw [← owns_unread harg18]; unfold owns
  iexists _; isplitr
  swap; · iexact HS0
  ipureintro
  refine (View.read_writes_eq_canon _ _ _ (View.cover_of_tiledL _ S512x64.size (by sl_kernel_rfl))).trans ?_
  sl_unfold_words
  rw [View.canon_unit_zero zeros2]
  simp only [View.readAt_eq_ld, harg2.read_unread, harg3.read_unread, harg18.read_unread,
    View.ld_unit_zero (S := S512x2560) zeros2, View.ld_unit_zero (S := S64x2560) zeros2, View.ld_unit_zero (S := S512x64) zeros2]

theorem kernelRun0_C (hc0 : ¬cond0_0 i) (hc1 : cond0_1 i)
    {x0 : Vec F S512x2560 .f32} {x1 : Vec F S64x2560 .f32} {x2 : Vec F S64 .f32} {x3 : Vec F S3x64x64 .f32} {x4 : Vec F S3x64 .f32} {x5 : Vec F S3x64x64 .f32} {x6 : Vec F S3x64 .f32} {x7 : Vec F S3x64x64 .f32} {x8 : Vec F S3x64 .f32} {x9 : Vec F S3x64x64 .f32} {x10 : Vec F S3x64 .f32} {x11 : Vec F S128x64 .f32} {x12 : Vec F S128 .f32} {x13 : Vec F S64x128 .f32} {x14 : Vec F S64 .f32} {xs0 : Vec F S512x64 .f32} :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (epiPay (k0_pay2 x0 x1 xs0) x2 (sl3 x3 0) (sl2 x4 0) (sl3 x5 0) (sl2 x6 0) (sl3 x7 0) (sl2 x8 0) (sl3 x9 0) (sl2 x10 0) (sl3 x3 1) (sl2 x4 1) (sl3 x5 1) (sl2 x6 1) (sl3 x7 1) (sl2 x8 1) (sl3 x9 1) (sl2 x10 1) (sl3 x3 2) (sl2 x4 2) (sl3 x5 2) (sl2 x6 2) (sl3 x7 2) (sl2 x8 2) (sl3 x9 2) (sl2 x10 2) x11 x12 x13 x14) ∗ owns (c : Thread nD τ) arg18 fullShare (k0_pay2 x0 x1 xs0)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_a_eq_skeleton]; unfold cc0__kernel_a_skel
  simp (disch := assumption) only [owns_unread]
  iintro ⟨H0, H1, H2, H3, H4, H5, H6, H7, H8, H9, H10, H11, H12, H13, H14, ⟨%d, H15⟩, HS0, Hk⟩
  sl_exec (disch := first | exact hc0 | exact hc1)
  sl_step
  iapply Hk
  iframe H0 H1 H2 H3 H4 H5 H6 H7 H8 H9 H10 H11 H12 H13 H14
  rw [← owns_unread harg17, ← owns_unread harg18]; unfold owns
  isplitl [H15]
  · iexists _; isplitr
    swap; · iexact H15
    ipureintro
    refine (View.read_writes_eq_canon _ _ _ (View.cover_of_tiledL _ S512x64.size (by sl_kernel_rfl))).trans ?_
    sl_unfold_words
    rw [View.canon_unit_zero zeros2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread,
      View.readCov_unit_zero (S := S512x64) _ zeros2,
      View.ld_unit_zero (S := S512x2560) zeros2, View.ld_unit_zero (S := S64x2560) zeros2, View.ld_unit_zero (S := S512x64) zeros2,
      View.ld_unit_zero (S := S64) zeros1, View.ld_unit_zero (S := S128) zeros1, View.ld_unit_zero (S := S128x64) zeros2, View.ld_unit_zero (S := S64x128) zeros2]
    unfold epiPay
    simp only [sl3, sl2]
  iexists _; isplitr
  swap; · iexact HS0
  ipureintro
  refine (View.read_writes_eq_canon _ _ _ (View.cover_of_tiledL _ S512x64.size (by sl_kernel_rfl))).trans ?_
  sl_unfold_words
  rw [View.canon_unit_zero zeros2]
  simp only [View.readAt_eq_ld, harg2.read_unread, harg3.read_unread, harg18.read_unread,
    View.ld_unit_zero (S := S512x2560) zeros2, View.ld_unit_zero (S := S64x2560) zeros2, View.ld_unit_zero (S := S512x64) zeros2]

end Cert.KernelIdeal.Hand

end
-- ==== Proof.KI.R0Dat.lean ====
/- Region 0's proof data: along a grid row the accumulator after step k is the sum of the first k+1 partial
   products, and the output block is the epilogue of the finished accumulator, written at step 7. -/
import proofs.«132161_j53506702573937_1_alg».proof.Proof.KI.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

def idle15 : Vec F S512x64 .f32 := VO0_15.read (Elt F) VO0_15.junk

def epiAt0 (c : Dev nD) (t : Fin cfg0.N) (acc : Vec F S512x64 .f32) : Vec F S512x64 .f32 :=
  epiPay acc (iblk0 V c 2 t) (sl3 (iblk0 V c 3 t) 0) (sl2 (iblk0 V c 4 t) 0) (sl3 (iblk0 V c 5 t) 0) (sl2 (iblk0 V c 6 t) 0) (sl3 (iblk0 V c 7 t) 0) (sl2 (iblk0 V c 8 t) 0) (sl3 (iblk0 V c 9 t) 0) (sl2 (iblk0 V c 10 t) 0) (sl3 (iblk0 V c 3 t) 1) (sl2 (iblk0 V c 4 t) 1) (sl3 (iblk0 V c 5 t) 1) (sl2 (iblk0 V c 6 t) 1) (sl3 (iblk0 V c 7 t) 1) (sl2 (iblk0 V c 8 t) 1) (sl3 (iblk0 V c 9 t) 1) (sl2 (iblk0 V c 10 t) 1) (sl3 (iblk0 V c 3 t) 2) (sl2 (iblk0 V c 4 t) 2) (sl3 (iblk0 V c 5 t) 2) (sl2 (iblk0 V c 6 t) 2) (sl3 (iblk0 V c 7 t) 2) (sl2 (iblk0 V c 8 t) 2) (sl3 (iblk0 V c 9 t) 2) (sl2 (iblk0 V c 10 t) 2) (iblk0 V c 11 t) (iblk0 V c 12 t) (iblk0 V c 13 t) (iblk0 V c 14 t)

-- What the output block and the accumulator hold after the body at position n.
def outsAt0 (c : Dev nD) : (n : ℕ) → n < cfg0.N → Vec F S512x64 .f32 × Vec F S512x64 .f32
  | 0, hn => (idle15, k0_pay2 (iblk0 V c 0 ⟨0, hn⟩) (iblk0 V c 1 ⟨0, hn⟩) k0_pay1)
  | n + 1, hn =>
    let acc := k0_pay2 (iblk0 V c 0 ⟨n + 1, hn⟩) (iblk0 V c 1 ⟨n + 1, hn⟩) (if (n + 1) % 8 = 0 then k0_pay1 else (outsAt0 c n (Nat.lt_of_succ_lt hn)).2)
    (if (n + 1) % 8 = 7 then epiAt0 V c ⟨n + 1, hn⟩ acc else idle15, acc)

theorem outsAt0_A (c : Dev nD) (t : Fin cfg0.N) (h0 : t.val % 8 = 0) (h1 : ¬t.val % 8 = 7) :
    outsAt0 V c t.val t.isLt = (idle15, k0_pay2 (iblk0 V c 0 t) (iblk0 V c 1 t) k0_pay1) := by
  obtain ⟨_ | n, hn⟩ := t
  · rfl
  · show (if (n + 1) % 8 = 7 then _ else _, k0_pay2 _ _ (if (n + 1) % 8 = 0 then _ else _)) = _
    rw [if_pos h0, if_neg h1]

theorem outsAt0_B (c : Dev nD) (t : Fin cfg0.N) (h0 : ¬t.val % 8 = 0) (h1 : ¬t.val % 8 = 7) :
    outsAt0 V c t.val t.isLt = (idle15, k0_pay2 (iblk0 V c 0 t) (iblk0 V c 1 t) (outsAt0 V c (t.val - 1) (Nat.lt_of_le_of_lt (Nat.sub_le _ _) t.isLt)).2) := by
  obtain ⟨_ | n, hn⟩ := t
  · exact absurd (Nat.zero_mod _) h0
  · show (if (n + 1) % 8 = 7 then _ else _, k0_pay2 _ _ (if (n + 1) % 8 = 0 then _ else _)) = _
    rw [if_neg h0, if_neg h1]; rfl

theorem outsAt0_C (c : Dev nD) (t : Fin cfg0.N) (h0 : ¬t.val % 8 = 0) (h1 : t.val % 8 = 7) :
    outsAt0 V c t.val t.isLt = (epiAt0 V c t (k0_pay2 (iblk0 V c 0 t) (iblk0 V c 1 t) (outsAt0 V c (t.val - 1) (Nat.lt_of_le_of_lt (Nat.sub_le _ _) t.isLt)).2), k0_pay2 (iblk0 V c 0 t) (iblk0 V c 1 t) (outsAt0 V c (t.val - 1) (Nat.lt_of_le_of_lt (Nat.sub_le _ _) t.isLt)).2) := by
  obtain ⟨_ | n, hn⟩ := t
  · exact absurd (Nat.zero_mod _) h0
  · show (if (n + 1) % 8 = 7 then _ else _, k0_pay2 _ _ (if (n + 1) % 8 = 0 then _ else _)) = _
    rw [if_neg h0, if_pos h1]; rfl

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ other0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ other0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_15 (c : Dev nD) (t : Fin cfg0.N) : (dat0 V c).after 15 t = (outsAt0 V c t.val t.isLt).1 := by dsimp only [dat0]

theorem before0 (c : Dev nD) (w : Fin 16) (hw : w.val < 15) (t : Fin cfg0.N) (d) : (dat0 V c).before w t d = (dat0 V c).after w t := by
  obtain ⟨n, hn⟩ := w
  iterate 15 (rcases n with _ | n; · exact ((dat0 V c).before_in_eq_fetched _ rfl (fun _ => rfl) (fun _ _ _ => rfl) (fun _ => rfl) t d).trans rfl)
  exact absurd hw (by simp)

theorem leaves0 (c : Dev nD) (w : Fin 16) (hw : w.val < 15) (t : Fin cfg0.N) :
    (dat0 V c).leavesExact w t = owns (c : Thread nD τ) ((cfg0.win w).stage (cfg0.slots t w)) fullShare ((dat0 V c).after w t) := by
  unfold Dat.leavesExact; rw [liveAt0_in w hw t]

theorem PhiS_any (c : Dev nD) (n : ℕ) (h : n ≤ cfg0.N) : PhiS V c n h ⊢ Pipeline.ΦA spec0 c := by
  cases n with
  | zero => exact .rfl
  | succ n =>
    rw [PhiS_succ, PhiA0_eq]
    iintro ⟨⟨HS0, Hoth⟩, Hg⟩
    iframe Hoth Hg
    iexists _; iexact HS0

def bodyPre0 (c : Dev nD) (t : Fin cfg0.N) : sProp 𝕄 :=
  let P (w : Fin 16) : sProp 𝕄 := iprop(∃ d, owns (c : Thread nD τ) ((cfg0.win w).stage (cfg0.slots t w)) fullShare ((dat0 V c).before w t d))
  iprop((dat0 V c).Φ t.castSucc ∗ (dat0 V c).owesAt () t.castSucc
    ∗ P 0 ∗ P 1 ∗ P 2 ∗ P 3 ∗ P 4 ∗ P 5 ∗ P 6 ∗ P 7 ∗ P 8 ∗ P 9 ∗ P 10 ∗ P 11 ∗ P 12 ∗ P 13 ∗ P 14 ∗ P 15)

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp (disch := decide) only [before0 V c, leaves0 V c]
  rw [show (dat0 V c).owesAt () t.succ = (dat0 V c).owesAt () t.castSucc from rfl,
    show (dat0 V c).Φ t.succ = PhiS V c (t.val + 1) t.isLt from rfl, PhiS_succ, PhiS_castSucc]
  by_cases h1 : t.val % 8 = 7
  · have h0 : ¬t.val % 8 = 0 := by omega
    rw [show (dat0 V c).leavesExact 15 t = owns (c : Thread nD τ) (st0_15 t) fullShare ((dat0 V c).after 15 t) from by
      unfold Dat.leavesExact; rw [liveAt0_15 t ((hcond0_1 t).mpr h1)], after0_15, outsAt0_C V c t h0 h1, PhiS_pos V c _ _ (by omega)]
    dsimp only [dat0]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (kernelRun0_C (fun h => h0 ((hcond0_0 t).mp h)) ((hcond0_1 t).mpr h1))
    iframe H0 H1 H2 H3 H4 H5 H6 H7 H8 H9 H10 H11 H12 H13 H14 HS0
    isplitl [H15]; · iexists _; iexact H15
    iintro ⟨H0, H1, H2, H3, H4, H5, H6, H7, H8, H9, H10, H11, H12, H13, H14, H15, HS0⟩
    iframe Hoth Hg Ho H0 H1 H2 H3 H4 H5 H6 H7 H8 H9 H10 H11 H12 H13 H14
    isplitl [HS0]; · iexact HS0
    iexact H15
  · rw [Dat.leavesExact_idle (dat0 V c) 15 t (idleAt0_15 t (fun h => h1 ((hcond0_1 t).mp h))) (noFlush0_15 t (fun h => h1 ((hcond0_1 t).mp h)))]
    by_cases h0 : t.val % 8 = 0
    · rw [outsAt0_A V c t h0 h1]
      refine (sep_mono_left (PhiS_any V c _ _)).trans ?_
      rw [PhiA0_eq]
      dsimp only [dat0]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
      iapply (kernelRun0_A ((hcond0_0 t).mpr h0) (fun h => h1 ((hcond0_1 t).mp h)))
      iframe H0 H1 HS0
      iintro ⟨H0, H1, HS0⟩
      iframe Hoth Hg Ho H0 H1 H2 H3 H4 H5 H6 H7 H8 H9 H10 H11 H12 H13 H14 H15
      iexact HS0
    · rw [outsAt0_B V c t h0 h1, PhiS_pos V c _ _ (by omega)]
      dsimp only [dat0]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
      iapply (kernelRun0_B (fun h => h0 ((hcond0_0 t).mp h)) (fun h => h1 ((hcond0_1 t).mp h)))
      iframe H0 H1 HS0
      iintro ⟨H0, H1, HS0⟩
      iframe Hoth Hg Ho H0 H1 H2 H3 H4 H5 H6 H7 H8 H9 H10 H11 H12 H13 H14 H15
      iexact HS0

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := PhiS_any V c cfg0.N le_rfl

end R0

end Cert.KernelIdeal.Hand

end
-- ==== Proof.KI.R1Body.lean ====
/-
  Region 1, the output projection: at each grid point the body stores  h block · (weight block)ᵀ + bias row  over
  the whole output block.  Its proof data and body obligation, at the buffer contents V found on entry.
-/
import proofs.«132161_j53506702573937_1_alg».proof.Proof.Gen.KernelIdeal.Launch
import proofs.«132161_j53506702573937_1_alg».proof.Proof.Gen.KernelIdeal.Skeleton
import proofs.«132161_j53506702573937_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The block of window w's array that point t addresses, at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem z2 : (![0, 0] : Fin 2 → Nat) = fun _ => 0 := by decide

/-- The body's triple on whole buffers: each load reads its buffer's contents and the one store covers the output. -/
theorem sound_kernel1 (c : Dev nD) (E : Set ℕ) (i : grid1.Coords)
    (arg2 : Memref sig .tc .vmem S512x64 .f32) (harg2 : arg2.IsWhole) (arg3 : Memref sig .tc .vmem S2560x64 .f32) (harg3 : arg3.IsWhole)
    (arg4 : Memref sig .tc .vmem S1x2560 .f32) (harg4 : arg4.IsWhole) (arg5 : Memref sig .tc .vmem S512x2560 .f32) (harg5 : arg5.IsWhole)
    (x0 : Vec F S512x64 .f32) (x1 : Vec F S2560x64 .f32) (x2 : Vec F S1x2560 .f32) (d) (K : PUnit → sProp 𝕄) :
    iprop(owns c.tc arg2 fullShare x0 ∗ owns c.tc arg3 fullShare x1 ∗ owns c.tc arg4 fullShare x2
        ∗ owns c.tc arg5 fullShare d
        ∗ (iprop(owns c.tc arg2 fullShare x0 ∗ owns c.tc arg3 fullShare x1 ∗ owns c.tc arg4 fullShare x2
            ∗ owns c.tc arg5 fullShare (k1_pay1 x0 x1 x2)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%f3, -, H3⟩, Hk⟩
  subst hf0; subst hf1; subst hf2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact H3
  ipureintro
  rw [View.read_writes_eq_canon _ _ _ fun y => ⟨_, List.mem_singleton_self _, View.mem_set_unit_zero z2 inb_S512x2560_S512x2560_0_0 y⟩, View.canon_unit_zero z2]
  exact congr (congr (congrArg k1_pay1 (View.ld_unit_zero (S := S512x64) z2 _ _)) (View.ld_unit_zero (S := S2560x64) z2 _ _)) (View.ld_unit_zero (S := S1x2560) z2 _ _)

/-- Proof data: the inputs keep their blocks, the output block becomes the payload of the three input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

/-- The triple applies at every point, each input buffer holding its block there; invariant and debt are framed around it. -/
theorem body_obligation1 (c : Dev nD) : BodyObligation (dat1 (F := F) V c) (defs₀ (F := F)) Variants.none () Set.univ := fun t => by
  rw [bigSep_W1, bigSep_W1]
  simp only [(dat1 V c).before_in_eq_fetched 0 rfl (fun _ => rfl) (fun _ _ _ => rfl) fun _ => rfl,
    (dat1 V c).before_in_eq_fetched 1 rfl (fun _ => rfl) (fun _ _ _ => rfl) fun _ => rfl,
    (dat1 V c).before_in_eq_fetched 2 rfl (fun _ => rfl) (fun _ _ _ => rfl) fun _ => rfl]
  show _ ⊢ wp _ _ _ (bodyAt1 t) _
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩, ⟨%d3, H3⟩⟩
  iapply (sound_kernel1 c Set.univ _ _ _ _ _ _ _ _ _ _ _ _ _ _)
  iframe
  iintro H
  iexact H

end Region1

end Cert.KernelIdeal.Hand

end
-- ==== Proof.KI.Whole.lean ====
/-
  @main as a list of items: nine host stretches, two kernel regions, a closing slice. Between items each core holds
  every unscoped buffer at a known valuation, and a region changes only its windows' arrays; so a buffer that no item
  writes ends as launched, and the result buffer ends as the slice of what the second region wrote.
-/
import proofs.«132161_j53506702573937_1_alg».proof.Proof.KI.R0Dat
import proofs.«132161_j53506702573937_1_alg».proof.Proof.KI.R1Body
import proofs.«132161_j53506702573937_1_alg».proof.Proof.Gen.KernelIdeal.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
/-- Beside the buffers every item carries the generator register and the fact that the core owes nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

abbrev Ve0 : (c : Dev nD) → (b : Ref sig .tc) → Buf (Elt F) ((c : Thread nD τ).loc b) := fun c b => Gen.V9 m c b
/-- The valuation after region 0: its arrays at their final contents, every other buffer as entered. -/
def W10 (c : Dev nD) : Valuation τ sig (Elt F) :=
  Pipeline.withArrays spec0 c (Gen.V9 m c) fun w => (dat0 (Ve0 m) c).arrAt w cfg0.N
theorem W10_arr (c : Dev nD) (w : Fin cfg0.W) :
    W10 m c (Proc.devRef .tc (Pipeline.arrRef spec0 w)) = (dat0 (Ve0 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = Gen.V9 m c (Proc.devRef .tc b) := by
  unfold W10; exact Pipeline.withArrays_of_ne spec0 c _ _ b hb
/-- Region 0 leaves as entered every input window's array and every buffer that is no array of its. -/
theorem W10_keep (c : Dev nD) (b : Ref sig .tc) (h : ∀ w, Pipeline.arrRef spec0 w = b → (cfg0.win w).isOut = false) :
    W10 m c (Proc.devRef .tc b) = Gen.V9 m c (Proc.devRef .tc b) := by
  by_cases hw : ∃ w, Pipeline.arrRef spec0 w = b
  · obtain ⟨w, rfl⟩ := hw
    exact (W10_arr m c w).trans (((dat0 (Ve0 m) c).arrAt_in w (h w rfl) _).trans (A_eq0 (Ve0 m) c w))
  · exact W10_of_ne m c b fun w e => hw ⟨w, e⟩

abbrev Ve1 : (c : Dev nD) → (b : Ref sig .tc) → Buf (Elt F) ((c : Thread nD τ).loc b) := fun c b => W10 m c b
/-- The valuation after region 1. -/
def W11 (c : Dev nD) : Valuation τ sig (Elt F) :=
  Pipeline.withArrays spec1 c (W10 m c) fun w => (dat1 (Ve1 m) c).arrAt w cfg1.N
theorem W11_arr (c : Dev nD) (w : Fin cfg1.W) :
    W11 m c (Proc.devRef .tc (Pipeline.arrRef spec1 w)) = (dat1 (Ve1 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
/-- The valuation after the closing slice. -/
abbrev W12 (c : Dev nD) : Valuation τ sig (Elt F) := StableHlo.after hostOps2 (W11 m c)

/-- An unscoped buffer that no host stretch writes, no array of region 1, and of region 0 at most an input window's. -/
abbrev Kept (b : Ref sig .tc) : Prop :=
  ¬ (Proc.devRef .tc b : DevRef τ sig).isScoped ∧ b ∉ Gen.hostOps2_W ∧ (∀ w, Pipeline.arrRef spec1 w ≠ b)
    ∧ (∀ w, Pipeline.arrRef spec0 w = b → (cfg0.win w).isOut = false)
    ∧ b ∉ Gen.hostOps0_8_W ∧ b ∉ Gen.hostOps0_7_W ∧ b ∉ Gen.hostOps0_6_W ∧ b ∉ Gen.hostOps0_5_W ∧ b ∉ Gen.hostOps0_4_W
    ∧ b ∉ Gen.hostOps0_3_W ∧ b ∉ Gen.hostOps0_2_W ∧ b ∉ Gen.hostOps0_1_W ∧ b ∉ Gen.hostOps0_W

/-- Such a buffer ends as launched: each item in turn leaves it as it found it. -/
theorem W12_kept (c : Dev nD) (b : Ref sig .tc) (h : Kept b) : W12 m c (Proc.devRef .tc b) = m ((c : Thread nD τ).loc b) := by
  obtain ⟨-, h12, h11, h10, h9, h8, h7, h6, h5, h4, h3, h2, h1⟩ := h
  exact (StableHlo.after_of_writes_sub hostOps2 _ Gen.hostOps2_writes h12).trans <| (W11_of_ne m c b h11).trans <|
    (W10_keep m c b h10).trans <| (Gen.V9_of m c b h9).trans <| (Gen.V8_of m c b h8).trans <| (Gen.V7_of m c b h7).trans <|
    (Gen.V6_of m c b h6).trans <| (Gen.V5_of m c b h5).trans <| (Gen.V4_of m c b h4).trans <| (Gen.V3_of m c b h3).trans <|
    (Gen.V2_of m c b h2).trans <| (Gen.V1_of m c b h1).trans rfl

def pdats : (p : Fin 2) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region `p` over the thread state: entered with every unscoped buffer at `V`, left with them at `V'`, which has the
    region's arrays at their final contents and is `V` elsewhere. -/
def regAt (p : Fin 2) (lf : Pipeline.LaunchFacts (nD := nD) (τ := τ) cfgs p) (V V' : (c : Dev nD) → Valuation τ sig (Elt F))
    (hb : ∀ c, BodyObligation (pdats m p c) (defs₀ (F := F)) 𝒱₀ () Set.univ)
    (hq : ∀ c w, (pdats m p c).q w = fullShare) (h0 : ∀ c t, (pdats m p c).owed t = 0)
    (hr : ∀ c, (pdats m p c).recorded 0 = Set.univ)
    (hA : ∀ c w, (pdats m p c).A w = V c (Pipeline.arrRef (cfgs p).spec w))
    (hF : ∀ c w, (pdats m p c).arrAt w (cfgs p).N = V' c (Pipeline.arrRef (cfgs p).spec w))
    (hrest : ∀ c b, b ∉ Finset.univ.image (Pipeline.arrRef (cfgs p).spec) → V' c b = V c b)
    (hi : ∀ c, Pipeline.ΦA (cfgs p).spec c ⊢ (pdats m p c).Φ 0)
    (ho : ∀ c, (pdats m p c).Φ (Fin.last (cfgs p).N) ⊢ Pipeline.ΦA (cfgs p).spec c) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) Gen.adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

set_option backward.isDefEq.respectTransparency.types false in
def reg0 : Pipeline.RegionSeg (pcfgs (F := F)) Gen.adm (pdats m) () defs₀ 𝒱₀ L lv 0 :=
  regAt m 0 launch0 (Gen.V9 m) (W10 m) (body_obligation0 (Ve0 m)) (fun _ _ => rfl) (fun _ _ => rfl) (fun _ => rfl) (fun _ _ => rfl)
    (fun c w => (W10_arr m c w).symm) (fun c b hb => W10_of_ne m c b fun w e => hb (Finset.mem_image.mpr ⟨w, Finset.mem_univ _, e⟩))
    (hin0 (Ve0 m)) (hout0 (Ve0 m))

set_option backward.isDefEq.respectTransparency.types false in
def reg1 : Pipeline.RegionSeg (pcfgs (F := F)) Gen.adm (pdats m) () defs₀ 𝒱₀ L lv 1 :=
  regAt m 1 launch1 (W10 m) (W11 m) (body_obligation1 (Ve1 m)) (fun _ _ => rfl) (fun _ _ => rfl) (fun _ => rfl) (fun _ _ => rfl)
    (fun c w => (W11_arr m c w).symm) (fun c b hb => W11_of_ne m c b fun w e => hb (Finset.mem_image.mpr ⟨w, Finset.mem_univ _, e⟩))
    (fun _ => .rfl) (fun _ => .rfl)

def segLast : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp Gen.hostOps2_fresh) op h) (W11 m) (E 2)

abbrev segs (c : Dev nD) : List (Seg (pcfgs (F := F)) Gen.adm (pdats m) () defs₀ 𝒱₀ L lv) :=
  [.host (Gen.seg0 m 𝒱₀ L lv E), .host (Gen.seg1 m 𝒱₀ L lv E), .host (Gen.seg2 m 𝒱₀ L lv E), .host (Gen.seg3 m 𝒱₀ L lv E), .host (Gen.seg4 m 𝒱₀ L lv E), .host (Gen.seg5 m 𝒱₀ L lv E), .host (Gen.seg6 m 𝒱₀ L lv E), .host (Gen.seg7 m 𝒱₀ L lv E), .host (Gen.seg8 m 𝒱₀ L lv E), .region (reg0 m), .region (reg1 m), .host (segLast m)]

set_option backward.isDefEq.respectTransparency.types false in
/-- Every weakly fair execution of @main terminates; the result buffer then holds the slice of what region 1 left, every kept buffer its launch contents. -/
theorem run_result : θ_run defs (onTc (τ := τ) (main (F := F))) ⟨m, fun _ => 0, ρ⟩ (fun r => ∀ c : Dev nD,
      r.2.mem ((c.tc : Thread nD τ).loc main_v7) = W12 m c (Proc.devRef .tc main_v7)
      ∧ ∀ b, Kept b → r.2.mem ((c.tc : Thread nD τ).loc b) = m ((c.tc : Thread nD τ).loc b)) := by
  refine Pipeline.θ_run_regions_kit_dev (pcfgs (F := F)) Gen.adm (pdats m) () cellOf_inj emb₁ defs₀ 𝒱₀ L lv m ρ main
    (segs m)
    (fun c Q => by
      rewrite [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W12 m c))
    (hch := fun c => ⟨.rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = W12 m c b)
    (hfin := fun c s' => ?_)
    (hQ := fun _ h c => ⟨h c _ (mem_uc main_v7 (by decide)), fun b hb => (h c _ (mem_uc b hb.1)).trans (W12_kept m c b hb)⟩)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (W12 m c) s')
    isplitl [Hh] <;> iassumption

end Cert.KernelIdeal.Hand

end
-- ==== Proof.Val.RefGen.lean ====
/- The reference's run and its stage-by-stage readings, under one import. -/
import proofs.«132161_j53506702573937_1_alg».proof.Proof.Gen.ReferenceIdeal.Run
import proofs.«132161_j53506702573937_1_alg».proof.Proof.Gen.ReferenceIdeal.Read
-- ==== Proof.Val.Spec.lean ====
/-
  The map both programs compute on a row over the extended reals: project 20000 features to 64 hidden units and add a
  bias; three rounds of h ← ((Σ_e q_e·k_e)·v)·oWᵀ + ob + h with q, k, v affine in h; a rectified two-layer
  feed-forward with residual; project to 20000 outputs with a bias.
-/
import Mathlib.Data.EReal.Inv
import Mathlib.Algebra.BigOperators.Group.Finset.Basic

noncomputable section

namespace Cert.Spec

open scoped BigOperators

/-- y_j = Σ_k h_k·W_{j,k} + b_j. -/
def lin {n o : ℕ} (h : Fin n → EReal) (W : Fin o → Fin n → EReal) (b : Fin o → EReal) : Fin o → EReal :=
  fun j => (∑ k : Fin n, h k * W j k) + b j

/-- With s = Σ_e q_e·k_e for q, k, v affine in h: the affine image of s·v under (oW, ob), plus h. -/
def attn (h : Fin 64 → EReal) (qW kW vW oW : Fin 64 → Fin 64 → EReal) (qb kb vb ob : Fin 64 → EReal) : Fin 64 → EReal :=
  fun j => lin (fun a => (∑ e : Fin 64, lin h qW qb e * lin h kW kb e) * lin h vW vb a) oW ob j + h j

/-- The affine image under (f2W, f2b) of max(lin h f1W f1b, 0), plus h. -/
def ffn (h : Fin 64 → EReal) (f1W : Fin 128 → Fin 64 → EReal) (f1b : Fin 128 → EReal)
    (f2W : Fin 64 → Fin 128 → EReal) (f2b : Fin 64 → EReal) : Fin 64 → EReal :=
  fun j => lin (fun a => max (lin h f1W f1b a) 0) f2W f2b j + h j

/-- The weights of the hidden stack; the first index of a round's weight is the round. -/
structure Params where
  inb : Fin 64 → EReal
  qW : Fin 3 → Fin 64 → Fin 64 → EReal
  qb : Fin 3 → Fin 64 → EReal
  kW : Fin 3 → Fin 64 → Fin 64 → EReal
  kb : Fin 3 → Fin 64 → EReal
  vW : Fin 3 → Fin 64 → Fin 64 → EReal
  vb : Fin 3 → Fin 64 → EReal
  oW : Fin 3 → Fin 64 → Fin 64 → EReal
  ob : Fin 3 → Fin 64 → EReal
  f1W : Fin 128 → Fin 64 → EReal
  f1b : Fin 128 → EReal
  f2W : Fin 64 → Fin 128 → EReal
  f2b : Fin 64 → EReal

/-- Round l under the weights P. -/
def layer (P : Params) (l : Fin 3) (h : Fin 64 → EReal) : Fin 64 → EReal :=
  attn h (P.qW l) (P.kW l) (P.vW l) (P.oW l) (P.qb l) (P.kb l) (P.vb l) (P.ob l)

/-- The hidden row of a projected row a: bias, rounds 0, 1, 2, feed-forward. -/
def hidden (P : Params) (a : Fin 64 → EReal) : Fin 64 → EReal :=
  ffn (layer P 2 (layer P 1 (layer P 0 (fun j => a j + P.inb j)))) P.f1W P.f1b P.f2W P.f2b

/-- y_j = Σ_g x_g·inW_{j,g}. -/
def proj (x : Fin 20000 → EReal) (inW : Fin 64 → Fin 20000 → EReal) : Fin 64 → EReal :=
  fun j => ∑ g : Fin 20000, x g * inW j g

/-- The output row of an input row x. -/
def full (P : Params) (x : Fin 20000 → EReal) (inW : Fin 64 → Fin 20000 → EReal)
    (outW : Fin 20000 → Fin 64 → EReal) (outb : Fin 20000 → EReal) : Fin 20000 → EReal :=
  lin (hidden P (proj x inW)) outW outb

end Cert.Spec

end
-- ==== Proof.Val.Params.lean ====
/-
  The weight arrays of the hidden stack as the specification's parameters: a vector entry by entry, a stacked matrix
  round by round.
-/
import proofs.«132161_j53506702573937_1_alg».proof.Proof.Val.Spec
import Idealize.ShloMosaic.PureOps.Ideal
import Idealize.ShloMosaic.Lib.ValueIdx

noncomputable section

namespace Cert.Spec

open Idealize.ShloMosaic Idealize.ShloMosaic.ValueIdx

/-- Each parameter is the array of the same name read at the same coordinates. -/
def paramsOf (inb : FVec Ideal ⟨1, ![64]⟩ .f32)
    (qW : FVec Ideal ⟨3, ![3, 64, 64]⟩ .f32) (qb : FVec Ideal ⟨2, ![3, 64]⟩ .f32)
    (kW : FVec Ideal ⟨3, ![3, 64, 64]⟩ .f32) (kb : FVec Ideal ⟨2, ![3, 64]⟩ .f32)
    (vW : FVec Ideal ⟨3, ![3, 64, 64]⟩ .f32) (vb : FVec Ideal ⟨2, ![3, 64]⟩ .f32)
    (oW : FVec Ideal ⟨3, ![3, 64, 64]⟩ .f32) (ob : FVec Ideal ⟨2, ![3, 64]⟩ .f32)
    (f1W : FVec Ideal ⟨2, ![128, 64]⟩ .f32) (f1b : FVec Ideal ⟨1, ![128]⟩ .f32)
    (f2W : FVec Ideal ⟨2, ![64, 128]⟩ .f32) (f2b : FVec Ideal ⟨1, ![64]⟩ .f32) : Params where
  inb j := inb (ix1 j)
  qW l j k := qW (ix3 l j k)
  qb l j := qb (ix2 l j)
  kW l j k := kW (ix3 l j k)
  kb l j := kb (ix2 l j)
  vW l j k := vW (ix3 l j k)
  vb l j := vb (ix2 l j)
  oW l j k := oW (ix3 l j k)
  ob l j := ob (ix2 l j)
  f1W a k := f1W (ix2 a k)
  f1b a := f1b (ix1 a)
  f2W j a := f2W (ix2 j a)
  f2b j := f2b (ix1 j)

end Cert.Spec

end
-- ==== Proof.Val.RefSpec.lean ====
/-
  The reference read row by row is the specification. A product with a [64, 64] matrix at (r, j) is the sum over the
  shared axis and the row sum spread back over the columns is the sum of the row, so one round on row r is the
  specification's round; the weights are read through their slices, and the stages compose.
-/
import proofs.«132161_j53506702573937_1_alg».proof.Proof.Val.RefGen
import proofs.«132161_j53506702573937_1_alg».proof.Proof.Val.Params
import Idealize.ShloMosaic.Lib.ValueIdx
import Idealize.ShloMosaic.Lib.Pipeline.Value
import Idealize.ShloMosaic.PureOps.Ideal.Laws
import Idealize.ShloMosaic.Lib.StackMember

noncomputable section

namespace Cert.RefSpec

open Cert.ReferenceIdeal Cert.ReferenceIdeal.Gen Cert.ReferenceIdeal.Read Idealize.ShloMosaic Idealize.ShloMosaic.ValueIdx

/-- These dimensions are the plain [m, k] × [k, n] ones, so the library's reading of that product applies. -/
theorem dot64_apply (H : FVec Ideal S4096x64 .f32) (Wt : FVec Ideal S64x64 .f32) (r : Fin 4096) (j : Fin 64) :
    Host.dotGeneral (F := Ideal) dot_S4096x64_S64x64_S4096x64_1_0_0_1_n_n none H Wt (ix2 r j)
      = ∑ k : Fin 64, H (ix2 r k) * Wt (ix2 k j) :=
  StackMember.dotGeneral_plain_apply none H Wt r j

/-- Both broadcasts copy the entry of row r, and a reduction started from the zero word is the plain sum. -/
theorem rowSum_apply (X : FVec Ideal S4096x64 .f32) (r : Fin 4096) (j : Fin 64) :
    broadcastInDim S4096x64 ![0, 1] bcast_S4096x1_S4096x64_0_1
      (broadcastInDim S4096x1 ![0] bcast_S4096_S4096x1_0
        (Host.reduceAdd (F := Ideal) X (constant (F := Ideal) S_ .f32 0x00000000#32) reducesTo_S4096x64_S4096_d1 h_S_)) (ix2 r j)
      = ∑ e : Fin 64, X (ix2 r e) := by
  rw [broadcastInDim_apply _ bcast_S4096x1_S4096x64_0_1 _ (ix2 r j) (ix2 r (0 : Fin 1)) (fun a => match a with
    | ⟨0, _⟩ => by show r.val = if (4096 : Nat) = 1 then 0 else r.val; rw [if_neg (by decide)]
    | ⟨1, _⟩ => by show 0 = if (1 : Nat) = 1 then 0 else j.val; rw [if_pos rfl])]
  rw [broadcastInDim_apply _ bcast_S4096_S4096x1_0 _ (ix2 r (0 : Fin 1)) (ix1 r) (fun a => match a with
    | ⟨0, _⟩ => by show r.val = if (4096 : Nat) = 1 then 0 else r.val; rw [if_neg (by decide)])]
  simp only [Host.reduceAdd, Ideal.hostReduceAdd_def]
  rw [Ideal.hostReduceAdd_single reducesTo_S4096x64_S4096_d1 (by decide)]
  show Ideal.ofBits .f32 0x00000000#32 + _ = _
  rw [Ideal.ofBits_zero_f32, zero_add]
  exact Finset.sum_congr rfl fun k _ => congrArg X (eq_ix2 _)

/-- One round as the operations compose it: q, k, v affine in H, the row sum of q·k times v, the output map, the residual. -/
def roundOp (H : FVec Ideal S4096x64 .f32) (qWt kWt vWt oWt : FVec Ideal S64x64 .f32)
    (qbb kbb vbb obb : FVec Ideal S4096x64 .f32) : FVec Ideal S4096x64 .f32 :=
  addf
    (addf
      (Host.dotGeneral (F := Ideal) dot_S4096x64_S64x64_S4096x64_1_0_0_1_n_n none
        (mulf
          (broadcastInDim S4096x64 ![0, 1] bcast_S4096x1_S4096x64_0_1
            (broadcastInDim S4096x1 ![0] bcast_S4096_S4096x1_0
              (Host.reduceAdd (F := Ideal)
                (mulf
                  (addf (Host.dotGeneral (F := Ideal) dot_S4096x64_S64x64_S4096x64_1_0_0_1_n_n none H qWt) qbb)
                  (addf (Host.dotGeneral (F := Ideal) dot_S4096x64_S64x64_S4096x64_1_0_0_1_n_n none H kWt) kbb))
                (constant (F := Ideal) S_ .f32 0x00000000#32) reducesTo_S4096x64_S4096_d1 h_S_)))
          (addf (Host.dotGeneral (F := Ideal) dot_S4096x64_S64x64_S4096x64_1_0_0_1_n_n none H vWt) vbb))
        oWt)
      obb)
    H

/-- Layer `l` of a stacked [3, 64, 64] array, flattened to [64, 64] and transposed. -/
def sW (W : FVec Ideal S3x64x64 .f32) (l : Fin 3) (hs : S3x64x64.Slices ![l.val, 0, 0] S1x64x64) : FVec Ideal S64x64 .f32 :=
  transpose S64x64 [1, 0] (shapeCast _ (extractStridedSlice S1x64x64 ![l.val, 0, 0] W hs) shapeCasts_S1x64x64_S64x64)
    transposes_S64x64_S64x64_1_0

/-- The transpose swaps (k, j), flattening keeps the row-major position, and the slice shifts the layer coordinate by `l`. -/
theorem sW_apply (W : FVec Ideal S3x64x64 .f32) (l : Fin 3) (hs : S3x64x64.Slices ![l.val, 0, 0] S1x64x64) (k j : Fin 64) :
    sW W l hs (ix2 k j) = W (ix3 l j k) := by
  rw [sW, transpose_apply [1, 0] _ transposes_S64x64_S64x64_1_0 (ix2 k j) (ix2 j k) (fun b => match b with
      | ⟨0, _⟩ => rfl
      | ⟨1, _⟩ => rfl),
    shapeCast_apply _ shapeCasts_S1x64x64_S64x64 (ix2 j k) (ix3 (0 : Fin 1) j k) (by
      rewrite [Shape.rowMajor_val_three, Shape.rowMajor_val_two]
      show (0 * 64 + j.val) * 64 + k.val = j.val * 64 + k.val; omega),
    extractStridedSlice_apply ![l.val, 0, 0] W hs (ix3 (0 : Fin 1) j k) (ix3 l j k) (fun a => match a with
      | ⟨0, _⟩ => by show l.val = l.val + 0; omega
      | ⟨1, _⟩ => by show j.val = 0 + j.val; omega
      | ⟨2, _⟩ => by show k.val = 0 + k.val; omega)]

/-- Layer `l` of a stacked [3, 64] bias, flattened and spread over the 4096 rows. -/
def sB (b : FVec Ideal S3x64 .f32) (l : Fin 3) (hs : S3x64.Slices ![l.val, 0] S1x64) : FVec Ideal S4096x64 .f32 :=
  broadcastInDim S4096x64 ![0, 1] bcast_S1x64_S4096x64_0_1 (broadcastInDim S1x64 ![1] bcast_S64_S1x64_1
    (shapeCast _ (extractStridedSlice S1x64 ![l.val, 0] b hs) shapeCasts_S1x64_S64))

/-- Neither broadcast looks at the row, flattening keeps the position, and the slice shifts the layer coordinate by `l`. -/
theorem sB_apply (b : FVec Ideal S3x64 .f32) (l : Fin 3) (hs : S3x64.Slices ![l.val, 0] S1x64) (r : Fin 4096) (j : Fin 64) :
    sB b l hs (ix2 r j) = b (ix2 l j) := by
  rw [sB, broadcastInDim_apply _ bcast_S1x64_S4096x64_0_1 _ (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)]),
    broadcastInDim_apply _ bcast_S64_S1x64_1 _ (ix2 (0 : Fin 1) j) (ix1 j) (fun a => match a with
      | ⟨0, _⟩ => by show j.val = if (64 : Nat) = 1 then 0 else j.val; rw [if_neg (by decide)]),
    shapeCast_apply _ shapeCasts_S1x64_S64 (ix1 j) (ix2 (0 : Fin 1) j) (by
      rewrite [Shape.rowMajor_val_two, Shape.rowMajor_val_one]
      show 0 * 64 + j.val = j.val; omega),
    extractStridedSlice_apply ![l.val, 0] b hs (ix2 (0 : Fin 1) j) (ix2 l j) (fun a => match a with
      | ⟨0, _⟩ => by show l.val = l.val + 0; omega
      | ⟨1, _⟩ => by show j.val = 0 + j.val; omega)]

section Rows
variable (x0 : FVec Ideal S4096x20000 .f32) (x1 : FVec Ideal S64x20000 .f32) (x2 : FVec Ideal S64 .f32)
  (x3 : FVec Ideal S3x64x64 .f32) (x4 : FVec Ideal S3x64 .f32) (x5 : FVec Ideal S3x64x64 .f32) (x6 : FVec Ideal S3x64 .f32)
  (x7 : FVec Ideal S3x64x64 .f32) (x8 : FVec Ideal S3x64 .f32) (x11 : FVec Ideal S3x64x64 .f32) (x12 : FVec Ideal S3x64 .f32)
  (x13 : FVec Ideal S128x64 .f32) (x14 : FVec Ideal S128 .f32) (x15 : FVec Ideal S64x128 .f32) (x16 : FVec Ideal S64 .f32)
  (x17 : FVec Ideal S20000x64 .f32) (x18 : FVec Ideal S20000 .f32)
variable (r : Fin 4096) (h : Fin 64 → EReal)

/-- The transpose swaps the weight's coordinates, and the bias is spread over the rows. -/
theorem hid0_row (j : Fin 64) :
    val_main_v4 (F := Ideal) x0 x1 x2 (ix2 r j)
      = Cert.Spec.proj (fun g => x0 (ix2 r g)) (fun j g => x1 (ix2 j g)) j + x2 (ix1 j) := by
  rw [val_main_v4_apply, val_main_v1_apply, val_main_v3_apply, val_main_v2_apply]
  simp only [Ideal.addf_def]
  unfold Cert.Spec.proj
  refine congrArg₂ (· + ·) (Finset.sum_congr rfl fun k _ => ?_) (congrArg x2 (eq_ix1 _))
  rw [val_main_v0_apply]
  exact congrArg₂ (· * ·) (congrArg x0 (eq_ix2 _)) (congrArg x1 (eq_ix2 _))

/-- Every product reads as a sum, the slices read as layer `l`'s weights, and the row sum is that of row r alone. -/
theorem round_row (H : FVec Ideal S4096x64 .f32) (l : Fin 3) (hW : S3x64x64.Slices ![l.val, 0, 0] S1x64x64)
    (hb : S3x64.Slices ![l.val, 0] S1x64) (hH : ∀ k, H (ix2 r k) = h k) (j : Fin 64) :
    roundOp H (sW x3 l hW) (sW x5 l hW) (sW x7 l hW) (sW x11 l hW) (sB x4 l hb) (sB x6 l hb) (sB x8 l hb) (sB x12 l hb)
        (ix2 r j)
      = Cert.Spec.attn h (fun j k => x3 (ix3 l j k)) (fun j k => x5 (ix3 l j k)) (fun j k => x7 (ix3 l j k))
          (fun j k => x11 (ix3 l j k)) (fun j => x4 (ix2 l j)) (fun j => x6 (ix2 l j)) (fun j => x8 (ix2 l j))
          (fun j => x12 (ix2 l j)) j := by
  unfold roundOp Cert.Spec.attn Cert.Spec.lin
  simp only [addf_apply, mulf_apply, dot64_apply, hH, sW_apply, sB_apply]
  congr 2
  refine Finset.sum_congr rfl fun a _ => ?_
  rw [rowSum_apply]
  simp only [addf_apply, mulf_apply, dot64_apply, hH, sW_apply, sB_apply]

/-- The rectifier is the maximum with the zero word, which is the real zero. -/
theorem relu_row (hH : ∀ k, val_main_v130 (F := Ideal) x0 x1 x2 x3 x4 x5 x6 x7 x8 x11 x12 (ix2 r k) = h k) (a : Fin 128) :
    val_main_v136 (F := Ideal) x0 x1 x2 x3 x4 x5 x6 x7 x8 x11 x12 x13 x14 (ix2 r a)
      = max (Cert.Spec.lin h (fun a k => x13 (ix2 a k)) (fun a => x14 (ix1 a)) a) 0 := by
  rw [val_main_v136_apply, val_main_v135_apply, val_main_v132_apply, val_main_v134_apply, val_main_v133_apply,
    val_main_call0_v0_apply, val_main_call0_cst_apply]
  simp only [Ideal.maximumf_def, Ideal.addf_def, Ideal.ofBits_def, Ideal.ofBits_zero_f32]
  unfold Cert.Spec.lin
  refine congrArg₂ max (congrArg₂ (· + ·) (Finset.sum_congr rfl fun k _ => ?_) (congrArg x14 (eq_ix1 _))) rfl
  rw [val_main_v131_apply, show lidx_main_v132 (ix2 r a) k = ix2 r k from eq_ix2 _, hH]
  exact congrArg (h k * ·) (congrArg x13 (eq_ix2 _))

/-- The second product sums the rectified units of row r, and the residual adds row r back. -/
theorem ffn_row (hH : ∀ k, val_main_v130 (F := Ideal) x0 x1 x2 x3 x4 x5 x6 x7 x8 x11 x12 (ix2 r k) = h k) (j : Fin 64) :
    val_main_v142 (F := Ideal) x0 x1 x2 x3 x4 x5 x6 x7 x8 x11 x12 x13 x14 x15 x16 (ix2 r j)
      = Cert.Spec.ffn h (fun a k => x13 (ix2 a k)) (fun a => x14 (ix1 a)) (fun j a => x15 (ix2 j a))
          (fun j => x16 (ix1 j)) j := by
  rw [val_main_v142_apply, val_main_v141_apply, val_main_v138_apply, val_main_v140_apply, val_main_v139_apply, hH]
  simp only [Ideal.addf_def]
  unfold Cert.Spec.ffn Cert.Spec.lin
  refine congrArg (· + h j) (congrArg₂ (· + ·) (Finset.sum_congr rfl fun a _ => ?_) (congrArg x16 (eq_ix1 _)))
  rw [val_main_v137_apply, show lidx_main_v138 (ix2 r j) a = ix2 r a from eq_ix2 _,
    relu_row x0 x1 x2 x3 x4 x5 x6 x7 x8 x11 x12 x13 x14 r h hH a]
  unfold Cert.Spec.lin
  exact congrArg (_ * ·) (congrArg x15 (eq_ix2 _))

/-- The last product contracts the hidden row with each output's weights. -/
theorem out_row (hH : ∀ k, val_main_v142 (F := Ideal) x0 x1 x2 x3 x4 x5 x6 x7 x8 x11 x12 x13 x14 x15 x16 (ix2 r k) = h k)
    (g : Fin 20000) :
    val_main_v147 (F := Ideal) x0 x1 x2 x3 x4 x5 x6 x7 x8 x11 x12 x13 x14 x15 x16 x17 x18 (ix2 r g)
      = Cert.Spec.lin h (fun g j => x17 (ix2 g j)) (fun g => x18 (ix1 g)) g := by
  rw [val_main_v147_apply, val_main_v144_apply, val_main_v146_apply, val_main_v145_apply]
  simp only [Ideal.addf_def]
  unfold Cert.Spec.lin
  refine congrArg₂ (· + ·) (Finset.sum_congr rfl fun k _ => ?_) (congrArg x18 (eq_ix1 _))
  rw [val_main_v143_apply, show lidx_main_v144 (ix2 r g) k = ix2 r k from eq_ix2 _, hH]
  exact congrArg (h k * ·) (congrArg x17 (eq_ix2 _))

/-- The stages compose: the reference's three rounds are the round of the operations on the slices of layers 0, 1, 2. -/
theorem ref_full (g : Fin 20000) :
    val_main_v147 (F := Ideal) x0 x1 x2 x3 x4 x5 x6 x7 x8 x11 x12 x13 x14 x15 x16 x17 x18 (ix2 r g)
      = Cert.Spec.full (Cert.Spec.paramsOf x2 x3 x4 x5 x6 x7 x8 x11 x12 x13 x14 x15 x16) (fun g => x0 (ix2 r g))
          (fun j g => x1 (ix2 j g)) (fun g j => x17 (ix2 g j)) (fun g => x18 (ix1 g)) g := by
  have h4 := hid0_row x0 x1 x2 r
  have h46 := round_row x3 x4 x5 x6 x7 x8 x11 x12 r _ (val_main_v4 (F := Ideal) x0 x1 x2) 0
    slices_S3x64x64_S1x64x64_0_0_0 slices_S3x64_S1x64_0_0 h4
  have h88 := round_row x3 x4 x5 x6 x7 x8 x11 x12 r _ (val_main_v46 (F := Ideal) x0 x1 x2 x3 x4 x5 x6 x7 x8 x11 x12) 1
    slices_S3x64x64_S1x64x64_1_0_0 slices_S3x64_S1x64_1_0 h46
  have h130 := round_row x3 x4 x5 x6 x7 x8 x11 x12 r _ (val_main_v88 (F := Ideal) x0 x1 x2 x3 x4 x5 x6 x7 x8 x11 x12) 2
    slices_S3x64x64_S1x64x64_2_0_0 slices_S3x64_S1x64_2_0 h88
  have h142 := ffn_row x0 x1 x2 x3 x4 x5 x6 x7 x8 x11 x12 x13 x14 x15 x16 r _ h130
  exact out_row x0 x1 x2 x3 x4 x5 x6 x7 x8 x11 x12 x13 x14 x15 x16 x17 x18 r _ h142 g

end Rows

end Cert.RefSpec

end
-- ==== Proof.Val.PadSum.lean ====
/-
  A dot product of rows of 20000 extended reals, zero-padded to 20480 = 8 · 2560 and accumulated in eight blocks
  of 2560, equals the plain dot product: addition is associative with neutral 0, and the 480 padded terms are 0 · 0.
-/
import Mathlib.Data.EReal.Inv
import Mathlib.Algebra.BigOperators.Group.Finset.Basic
import Mathlib.Algebra.BigOperators.Fin
import Mathlib.Data.Fintype.BigOperators

noncomputable section

namespace Cert.PadSum

def pad (x : Fin 20000 → EReal) : Fin 20480 → EReal :=
  fun g => if h : g.val < 20000 then x ⟨g.val, h⟩ else 0

def pos (k : Fin 8) (κ : Fin 2560) : Fin 20480 := ⟨2560 * k.val + κ.val, by omega⟩

def blockDot (xp wp : Fin 20480 → EReal) (k : Fin 8) : EReal :=
  ∑ κ : Fin 2560, xp (pos k κ) * wp (pos k κ)

def accUpTo (f : Fin 8 → EReal) : ℕ → EReal
  | 0 => 0 + f 0
  | n + 1 => accUpTo f n + f ⟨(n + 1) % 8, Nat.mod_lt _ (by decide)⟩

/-- The pairs (block, position) enumerate the padded row. -/
theorem sum_blocks (F : Fin 20480 → EReal) :
    ∑ k : Fin 8, ∑ κ : Fin 2560, F (pos k κ) = ∑ g : Fin 20480, F g :=
  (Fintype.sum_prod_type' fun k κ => F (pos k κ)).symm.trans
    (Fintype.sum_equiv (finProdFinEquiv (m := 8) (n := 2560)) _ F fun p => congrArg F (Fin.ext (Nat.add_comm _ _)))

theorem accUpTo_seven_eq_sum (f : Fin 8 → EReal) : accUpTo f 7 = ∑ k, f k := by
  rw [Fin.sum_univ_eight, ← zero_add (f 0)]; rfl

theorem accUpTo_seven (x w : Fin 20000 → EReal) :
    accUpTo (blockDot (pad x) (pad w)) 7 = ∑ g : Fin 20000, x g * w g := by
  refine (accUpTo_seven_eq_sum _).trans ((sum_blocks fun g => pad x g * pad w g).trans
    ((Fin.sum_trunc (a := 20000) (b := 480) _ fun j => ?_).trans (Finset.sum_congr rfl fun g _ => ?_)))
  · have h : ¬(Fin.natAdd 20000 j).val < 20000 := Nat.not_lt.mpr (Nat.le_add_right _ _)
    rw [pad, dif_neg h, zero_mul]
  · have h : (Fin.castAdd 480 g).val < 20000 := g.isLt
    rw [pad, pad, dif_pos h, dif_pos h]; rfl

end Cert.PadSum
-- ==== Proof.Val.HostVal.lean ====
import proofs.«132161_j53506702573937_1_alg».proof.Proof.Gen.KernelIdeal.Regions
import proofs.«132161_j53506702573937_1_alg».proof.Proof.Val.PadSum
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.KernelVsHost

/-!
  The host operations around the kernel regions, read at an index: four arrays padded with zeros to 20480,
  every other argument untouched, and at the end the leading [4096, 20000] rectangle of the result.
-/

noncomputable section

namespace Cert.KernelIdeal.HostVal

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The padding value of every pad of the program. -/
theorem padValue_eq (i : S_.Idx) :
    (sitofp (F := Ideal) .f32 (constantI S_ 32 0#32) : FVec Ideal S_ .f32) i = 0 :=
  sitofp_zero

/-- Inside the operand a pad reads the operand; past column 20000 it reads the padding value, here zero. -/
theorem pad_cols {n : Nat} (x : FVec Ideal ⟨2, ![n, 20000]⟩ .f32) (v : FVec Ideal S_ .f32) (hv : ∀ i, v i = 0)
    (hp : (⟨2, ![n, 20000]⟩ : Shape).Pads ![0, 0] ![0, 480] ![0, 0] ⟨2, ![n, 20480]⟩) (r : Fin n) (g : Fin 20480) :
    pad ⟨2, ![n, 20480]⟩ ![0, 0] ![0, 480] ![0, 0] x v hp h_S_ (ix2 r g) = Cert.PadSum.pad (fun g' => x (ix2 r g')) g := by
  unfold Cert.PadSum.pad
  by_cases hg : g.val < 20000
  · rw [dif_pos hg]
    exact pad_apply_of_inside _ _ _ x v _ _ (ix2 r g) (ix2 r ⟨g.val, hg⟩) (fun a => match a with
      | ⟨0, _⟩ => by show r.val = 0 + r.val * (0 + 1); omega
      | ⟨1, _⟩ => by show g.val = 0 + g.val * (0 + 1); omega)
  · rw [dif_neg hg, pad_apply_of_not_inside _ _ _ x v _ _ (ix2 r g) (⟨1, by decide⟩ : Fin 2) (by
      show ¬(0 ≤ g.val ∧ (g.val - 0) % (0 + 1) = 0 ∧ (g.val - 0) / (0 + 1) < 20000); omega), hv]

theorem V9_main_v0 (c : Dev nD) (r : Fin 4096) (g : Fin 20480) :
    (Gen.V9 m c main_v0 : FVec Ideal S4096x20480 .f32) (ix2 r g)
      = Cert.PadSum.pad (fun g' => (m ((c : Thread nD τ).loc main_arg0) : FVec Ideal S4096x20000 .f32) (ix2 r g')) g := by
  refine Eq.trans ?_ (pad_cols _ _ padValue_eq pads_S4096x20000_S4096x20480_000_04800 r g)
  dsimp only [V9, V8, V7, V6, V5, V4, V3, V2, V1, V0, hostOps0_8, hostOps0_7, hostOps0_6, hostOps0_5, hostOps0_4, hostOps0_3,
    hostOps0_2, hostOps0_1, hostOps0]
  after_results
  rfl

theorem V9_main_v1 (c : Dev nD) (j : Fin 64) (g : Fin 20480) :
    (Gen.V9 m c main_v1 : FVec Ideal S64x20480 .f32) (ix2 j g)
      = Cert.PadSum.pad (fun g' => (m ((c : Thread nD τ).loc main_arg1) : FVec Ideal S64x20000 .f32) (ix2 j g')) g := by
  refine Eq.trans ?_ (pad_cols _ _ padValue_eq pads_S64x20000_S64x20480_000_04800 j g)
  dsimp only [V9, V8, V7, V6, V5, V4, V3, V2, V1, V0, hostOps0_8, hostOps0_7, hostOps0_6, hostOps0_5, hostOps0_4, hostOps0_3,
    hostOps0_2, hostOps0_1, hostOps0]
  after_results
  rfl

theorem V9_main_v2 (c : Dev nD) (g : Fin 20000) (j : Fin 64) :
    (Gen.V9 m c main_v2 : FVec Ideal S20480x64 .f32) (ix2 ⟨g.val, by omega⟩ j)
      = (m ((c : Thread nD τ).loc main_arg17) : FVec Ideal S20000x64 .f32) (ix2 g j) := by
  refine Eq.trans ?_ (pad_apply_of_inside ![0, 0] ![480, 0] ![0, 0] _ (sitofp (F := Ideal) .f32 (constantI S_ 32 0#32))
    pads_S20000x64_S20480x64_04800_000 h_S_ (ix2 (⟨g.val, by omega⟩ : Fin 20480) j) (ix2 g j) (fun a => match a with
      | ⟨0, _⟩ => by show g.val = 0 + g.val * (0 + 1); omega
      | ⟨1, _⟩ => by show j.val = 0 + j.val * (0 + 1); omega))
  dsimp only [V9, V8, V7, V6, V5, V4, V3, V2, V1, V0, hostOps0_8, hostOps0_7, hostOps0_6, hostOps0_5, hostOps0_4, hostOps0_3,
    hostOps0_2, hostOps0_1, hostOps0]
  after_results
  rfl

/-- The one-row view keeps the row-major position, and `0 · 20480 + g = g` lies inside the unpadded vector. -/
theorem V9_main_v4 (c : Dev nD) (g : Fin 20000) :
    (Gen.V9 m c main_v4 : FVec Ideal S1x20480 .f32) (ix2 0 ⟨g.val, by omega⟩)
      = (m ((c : Thread nD τ).loc main_arg18) : FVec Ideal S20000 .f32) (ix1 g) := by
  refine Eq.trans ?_ ((shapeCast_apply _ shapeCasts_S20480_S1x20480 (ix2 (0 : Fin 1) (⟨g.val, by omega⟩ : Fin 20480))
    (ix1 (⟨g.val, by omega⟩ : Fin 20480)) (by
      rw [Shape.rowMajor_val_two, Shape.rowMajor_val_one]; show g.val = 0 * 20480 + g.val; omega)).trans
    (pad_apply_of_inside ![0] ![480] ![0] _ (sitofp (F := Ideal) .f32 (constantI S_ 32 0#32)) pads_S20000_S20480_04800 h_S_
      (ix1 (⟨g.val, by omega⟩ : Fin 20480)) (ix1 g) (fun a => match a with
        | ⟨0, _⟩ => by show g.val = 0 + g.val * (0 + 1); omega)))
  dsimp only [V9, V8, V7, V6, V5, V4, V3, V2, V1, V0, hostOps0_8, hostOps0_7, hostOps0_6, hostOps0_5, hostOps0_4, hostOps0_3,
    hostOps0_2, hostOps0_1, hostOps0]
  after_results
  rfl

/-- Each stretch leaves a reference outside its write set as it was. -/
theorem V9_keep (c : Dev nD) (r : Ref sig .tc)
    (h : r ∉ hostOps0_W ++ hostOps0_1_W ++ hostOps0_2_W ++ hostOps0_3_W ++ hostOps0_4_W ++ hostOps0_5_W ++ hostOps0_6_W
      ++ hostOps0_7_W ++ hostOps0_8_W) : Gen.V9 m c r = m ((c : Thread nD τ).loc r) := by
  simp only [List.mem_append, not_or] at h
  obtain ⟨⟨⟨⟨⟨⟨⟨⟨h0, h1⟩, h2⟩, h3⟩, h4⟩, h5⟩, h6⟩, h7⟩, h8⟩ := h
  exact (V9_of m c r h8).trans <| (V8_of m c r h7).trans <| (V7_of m c r h6).trans <| (V6_of m c r h5).trans <|
    (V5_of m c r h4).trans <| (V4_of m c r h3).trans <| (V3_of m c r h2).trans <| (V2_of m c r h1).trans <|
    (V1_of m c r h0).trans rfl

theorem slice_main_v7 (Wv : Valuation τ sig (Elt Ideal)) (r : Fin 4096) (g : Fin 20000) :
    ((StableHlo.after hostOps2 Wv) main_v7 : FVec Ideal S4096x20000 .f32) (ix2 r g)
      = (Wv main_v6 : FVec Ideal S4096x20480 .f32) (ix2 r ⟨g.val, by omega⟩) := by
  refine Eq.trans ?_ (extractStridedSlice_apply ![0, 0] _ slices_S4096x20480_S4096x20000_0_0 (ix2 r g)
    (ix2 r (⟨g.val, by omega⟩ : Fin 20480)) (fun a => match a with
      | ⟨0, _⟩ => by show r.val = 0 + r.val; omega
      | ⟨1, _⟩ => by show g.val = 0 + g.val; omega))
  dsimp only [Gen.hostOps2]
  after_results

end Cert.KernelIdeal.HostVal
-- ==== Proof.Val.Pieces.lean ====
/- Layer l of a stacked weight or bias array, as the block a step loads, holds the array's entries of layer l. -/
import proofs.«132161_j53506702573937_1_alg».proof.Proof.KI.R0Dat
import proofs.«132161_j53506702573937_1_alg».proof.Proof.KI.EpiPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem sl3_apply (x : Vec F S3x64x64 .f32) (l : Fin 3) (j k : Fin 64) : sl3 x l (ix3 0 j k) = x (ix3 l j k) := by
  have key : ∀ (o : Fin 3 → Nat) (inb : ∀ a, o a + S1x64x64.size a ≤ S3x64x64.size a), o 0 = l.val → o 1 = 0 → o 2 = 0 →
      View.ld x (Rect.unit (s := S3x64x64) o S1x64x64.size inb) (ix3 0 j k) = x (ix3 l j k) := by
    intro o inb h0 h1 h2
    show x ((Rect.unit (s := S3x64x64) o S1x64x64.size inb).idx (ix3 0 j k)) = x (ix3 l j k)
    refine congrArg x (funext fun a => ?_)
    match a with
    | ⟨0, _⟩ => exact Fin.ext (by show o 0 + 1 * 0 = l.val; omega)
    | ⟨1, _⟩ => exact Fin.ext (by show o 1 + 1 * j.val = j.val; omega)
    | ⟨2, _⟩ => exact Fin.ext (by show o 2 + 1 * k.val = k.val; omega)
  match l with
  | ⟨0, _⟩ => exact key _ _ rfl rfl rfl
  | ⟨1, _⟩ => exact key _ _ rfl rfl rfl
  | ⟨2, _⟩ => exact key _ _ rfl rfl rfl

theorem sl2_apply (x : Vec F S3x64 .f32) (l : Fin 3) (j : Fin 64) : sl2 x l (ix2 0 j) = x (ix2 l j) := by
  have key : ∀ (o : Fin 2 → Nat) (inb : ∀ a, o a + S1x64.size a ≤ S3x64.size a), o 0 = l.val → o 1 = 0 →
      View.ld x (Rect.unit (s := S3x64) o S1x64.size inb) (ix2 0 j) = x (ix2 l j) := by
    intro o inb h0 h1
    show x ((Rect.unit (s := S3x64) o S1x64.size inb).idx (ix2 0 j)) = x (ix2 l j)
    refine congrArg x (funext fun a => ?_)
    match a with
    | ⟨0, _⟩ => exact Fin.ext (by show o 0 + 1 * 0 = l.val; omega)
    | ⟨1, _⟩ => exact Fin.ext (by show o 1 + 1 * j.val = j.val; omega)
  match l with
  | ⟨0, _⟩ => exact key _ _ rfl rfl
  | ⟨1, _⟩ => exact key _ _ rfl rfl
  | ⟨2, _⟩ => exact key _ _ rfl rfl

end Cert.KernelIdeal.Hand

end
-- ==== Proof.Val.R0Acc.lean ====
/-
  The accumulator along a grid row: after step k of row block i it holds, at row p and hidden unit j, the sum of the
  first k + 1 block products of input row 512·i + p with weight row j.
-/
import proofs.«132161_j53506702573937_1_alg».proof.Proof.Val.Pieces
import proofs.«132161_j53506702573937_1_alg».proof.Proof.Val.PadSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R0Val

open Cert.KernelIdeal Cert.KernelIdeal.Gen Cert.KernelIdeal.Hand
open Idealize.ShloMosaic Idealize.ShloMosaic.TcCoe Idealize.ShloMosaic.ValueIdx
open Idealize.SL Idealize.SL.Sem

/-- A [512,2560] by [2560,64] block product into zero, at (p, j): the contraction index is its one coordinate. -/
theorem matmulW_apply (X : FVec Ideal S512x2560 .bf16) (Y : FVec Ideal S2560x64 .bf16) (p : Fin 512) (j : Fin 64) :
    matmul dot_S512x2560_S2560x64_S512x64_1_0_0_1_n_n none X Y (constant (F := Ideal) S512x64 .f32 0x00000000#32) (ix2 p j)
      = ∑ κ : Fin 2560, X (ix2 p κ) * Y (ix2 κ j) := by
  refine (Ideal.matmul_constant_zero_apply _ none X Y (ix2 p j)).trans ?_
  rw [← Equiv.sum_comp (contrEquiv1 _ 2560 rfl rfl).symm]
  refine Finset.sum_congr rfl fun κ _ => ?_
  have hk := contrEquiv1_symm_val dot_S512x2560_S2560x64_S512x64_1_0_0_1_n_n 2560 rfl rfl κ
  congr 2 <;> refine Shape.idx_ext₂ ?_ ?_
  · rfl
  · exact (DotDims.lhsIdx_val_of_single _ rfl _ _).trans hk
  · exact (DotDims.rhsIdx_val_of_single _ rfl _ _).trans hk
  · rfl

/-- A step's store at (p, j): the old accumulator plus row p of the input block times row j of the weight block. -/
theorem pay2_apply (x0 : FVec Ideal S512x2560 .f32) (x1 : FVec Ideal S64x2560 .f32) (xs : FVec Ideal S512x64 .f32)
    (p : Fin 512) (j : Fin 64) :
    k0_pay2 (F := Ideal) x0 x1 xs (ix2 p j) = xs (ix2 p j) + ∑ κ : Fin 2560, x0 (ix2 p κ) * x1 (ix2 j κ) := by
  unfold k0_pay2
  dsimp only
  rw [shapeCast_self, addf_apply]
  refine congrArg (xs (ix2 p j) + ·) ((matmulW_apply _ _ p j).trans (Finset.sum_congr rfl fun κ _ => ?_))
  rw [transpose_ix2_apply, shapeCast_self, shapeCast_self]
  rfl

theorem pay1_apply (p : Fin 512) (j : Fin 64) : k0_pay1 (F := Ideal) (ix2 p j) = 0 := by
  unfold k0_pay1
  rw [shapeCast_self]
  exact Ideal.ofBits_zero_f32

variable (V : (c : Dev nD) → (b : Ref sig .tc) → Buf (Elt Ideal) ((c : Thread nD τ).loc b))

def xrow (c : Dev nD) (ρ : Fin 4096) : Fin 20480 → EReal := fun g => (V c main_v0 : FVec Ideal S4096x20480 .f32) (ix2 ρ g)
def wrow (c : Dev nD) (j : Fin 64) : Fin 20480 → EReal := fun g => (V c main_v1 : FVec Ideal S64x20480 .f32) (ix2 j g)

abbrev xblk (c : Dev nD) (t : Fin cfg0.N) : FVec Ideal S512x2560 .f32 := iblk0 V c 0 t
abbrev wblk (c : Dev nD) (t : Fin cfg0.N) : FVec Ideal S64x2560 .f32 := iblk0 V c 1 t

theorem idx_facts : ∀ t : Fin cfg0.N,
    (win0_0.index t (0 : Fin 2) = t.val / 8 ∧ win0_0.index t (1 : Fin 2) = t.val % 8)
      ∧ (win0_1.index t (0 : Fin 2) = 0 ∧ win0_1.index t (1 : Fin 2) = t.val % 8) :=
  (by decide +kernel : ∀ t : Fin grid0.N, _)

theorem step_sum (c : Dev nD) (t : Fin cfg0.N) (p : Fin 512) (j : Fin 64) (ρ : Fin 4096) (k : Fin 8)
    (hk : k.val = t.val % 8) (hρ : ρ.val = 512 * (t.val / 8) + p.val) :
    ∑ κ : Fin 2560, xblk V c t (ix2 p κ) * wblk V c t (ix2 j κ)
      = Cert.PadSum.blockDot (xrow V c ρ) (wrow V c j) k := by
  obtain ⟨⟨a0, a1⟩, b0, b1⟩ := idx_facts t
  refine Finset.sum_congr rfl fun κ _ => congrArg₂ (· * ·) ((View.read_apply ..).trans ?_) ((View.read_apply ..).trans ?_)
  · refine congrArg (V c main_v0) (Shape.idx_ext₂ ?_ ?_)
    · show win0_0.index t (0 : Fin 2) * 512 + 1 * p.val = ρ.val; omega
    · show win0_0.index t (1 : Fin 2) * 2560 + 1 * κ.val = 2560 * k.val + κ.val; omega
  · refine congrArg (V c main_v1) (Shape.idx_ext₂ ?_ ?_)
    · show win0_1.index t (0 : Fin 2) * 64 + 1 * j.val = j.val; omega
    · show win0_1.index t (1 : Fin 2) * 2560 + 1 * κ.val = 2560 * k.val + κ.val; omega

theorem acc_next (c : Dev nD) (t : Fin cfg0.N) (h0 : ¬t.val % 8 = 0) :
    (outsAt0 V c t.val t.isLt).2
      = k0_pay2 (iblk0 V c 0 t) (iblk0 V c 1 t) (outsAt0 V c (t.val - 1) (Nat.lt_of_le_of_lt (Nat.sub_le _ _) t.isLt)).2 := by
  by_cases h1 : t.val % 8 = 7
  · rw [outsAt0_C V c t h0 h1]
  · rw [outsAt0_B V c t h0 h1]

/-- By induction on the point: a row's first step starts from zero, each later step adds its block product. -/
theorem acc_at (c : Dev nD) (j : Fin 64) (t : Fin cfg0.N) (p : Fin 512) (ρ : Fin 4096) (hρ : ρ.val = 512 * (t.val / 8) + p.val) :
    ((outsAt0 V c t.val t.isLt).2 : FVec Ideal S512x64 .f32) (ix2 p j)
      = Cert.PadSum.accUpTo (Cert.PadSum.blockDot (xrow V c ρ) (wrow V c j)) (t.val % 8) := by
  by_cases h0 : t.val % 8 = 0
  · rw [outsAt0_A V c t h0 (by omega)]
    refine (pay2_apply ..).trans ?_
    rw [pay1_apply, step_sum V c t p j ρ 0 h0.symm hρ, h0]
    rfl
  · have hm : t.val % 8 = (t.val - 1) % 8 + 1 := by omega
    refine (congrFun (acc_next V c t h0) _).trans ((pay2_apply ..).trans ?_)
    rw [acc_at c j ⟨t.val - 1, Nat.lt_of_le_of_lt (Nat.sub_le _ _) t.isLt⟩ p ρ (by show ρ.val = 512 * ((t.val - 1) / 8) + p.val; omega),
      step_sum V c t p j ρ ⟨((t.val - 1) % 8 + 1) % 8, Nat.mod_lt _ (by decide)⟩ (by show ((t.val - 1) % 8 + 1) % 8 = _; omega) hρ, hm]
    rfl
termination_by t.val
decreasing_by show t.val - 1 < t.val; omega

end Cert.KernelIdeal.R0Val

end
-- ==== Proof.Val.EpiSpec.lean ====
/-
  The epilogue of the last reduction step, read along row r of its [512,64] block, is the specification's hidden stack
  of row r of the accumulator: input bias, three attention rounds, feed-forward.
-/
import proofs.«132161_j53506702573937_1_alg».proof.Proof.KI.EpiPay
import proofs.«132161_j53506702573937_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

namespace Cert.EpiSpec

open Cert.KernelIdeal Cert.KernelIdeal.Gen Cert.KernelIdeal.Hand Idealize.ShloMosaic Idealize.ShloMosaic.ValueIdx
open scoped BigOperators

/-- Row r of a rank-2 block. -/
def row {m n : ℕ} {φ : FTy} (X : FVec Ideal ⟨2, ![m, n]⟩ φ) (r : Fin m) : Fin n → EReal := fun k => X (ix2 r k)

/-- A [n] vector set up as a [1,n] row and repeated over m rows reads, at (r, j), the vector at j. -/
theorem biasVec_apply {α : Type} {m n : ℕ} (b : (⟨1, ![n]⟩ : Shape).Idx → α) (h₁ : (⟨1, ![n]⟩ : Shape).ShapeCasts ⟨2, ![1, n]⟩)
    (h₂ : (⟨2, ![1, n]⟩ : Shape).Broadcasts ⟨2, ![m, n]⟩) (r : Fin m) (j : Fin n) :
    broadcastTo ⟨2, ![m, n]⟩ (shapeCast ⟨2, ![1, n]⟩ b h₁) h₂ (ix2 r j) = b (ix1 j) :=
  (broadcastTo_1b_ab_apply _ _ r j).trans (shapeCast_a_1a_apply b _ 0 j)

/-- A [512] vector as a [512,1] column spread over the 64 lanes reads, at (r, j), the vector at r. -/
theorem rowScalar_apply {α : Type} (v : S512.Idx → α) (r : Fin 512) (j : Fin 64) :
    broadcastTo S512x64 (shapeCast S512x1 v shapeCasts_S512_S512x1) broadcasts_S512x1_S512x64 (ix2 r j) = v (ix1 r) := by
  refine (broadcastTo_apply _ _ (ix2 r j) (ix2 r (0 : Fin 1)) fun ax => ?_).trans (shapeCast_apply v _ _ _ ?_)
  · match ax with
    | ⟨0, _⟩ => exact (if_neg (show ¬(512 : ℕ) = 1 by decide)).symm
    | ⟨1, _⟩ => exact (if_pos rfl).symm
  · rw [Shape.rowMajor_val_two, Shape.rowMajor_val_one]
    exact ((Nat.add_zero _).trans (Nat.mul_one _)).symm

/-- The sum over the 64 lanes of a [512,64] block, at row r. -/
theorem laneSum_apply (src : FVec Ideal S512x64 .f32) (hφ : FKind.Formats .f32)
    (hacc : (0x00000000#32 : BitVec 32) = 0x00000000#32) (r : Fin 512) :
    multiReduction (F := Ideal) .add [1] S512 src 0x00000000#32 reduces_S512x64_S512 hφ hacc (ix1 r) = ∑ e, row src r e :=
  (Ideal.multiReduction_add_single src _ reduces_S512x64_S512 hφ hacc (ix1 r)).trans
    (Finset.sum_congr rfl fun e _ => congrArg src (funext fun a => Fin.ext (by
      match a with
      | ⟨0, _⟩ => rfl
      | ⟨1, _⟩ => rfl)))

/-- A block product X·Y into zero plus B, with Y and B named entrywise, is along row r an affine map of row r of X. -/
theorem lin_apply {m n o : ℕ} {φ₁ φ₂ : FTy} (d : DotDims ⟨2, ![m, n]⟩ ⟨2, ![n, o]⟩ ⟨2, ![m, o]⟩)
    (hr : d.contr.rank = 1) (hs : d.contr.size ⟨0, by omega⟩ = n)
    (hi : ∀ i q, (d.lhsIdx i q 0).val = (i 0).val ∧ (d.lhsIdx i q 1).val = (q ⟨0, by omega⟩).val
      ∧ (d.rhsIdx i q 0).val = (q ⟨0, by omega⟩).val ∧ (d.rhsIdx i q 1).val = (i 1).val)
    (X : FVec Ideal ⟨2, ![m, n]⟩ φ₁) (Y : FVec Ideal ⟨2, ![n, o]⟩ φ₂) (B : FVec Ideal ⟨2, ![m, o]⟩ .f32)
    (W : Fin o → Fin n → EReal) (b : Fin o → EReal) (r : Fin m)
    (hY : ∀ k j, Y (ix2 k j) = W j k) (hB : ∀ j, B (ix2 r j) = b j) :
    row (addf (matmul d none X Y (constant (F := Ideal) ⟨2, ![m, o]⟩ .f32 0x00000000#32)) B) r = Cert.Spec.lin (row X r) W b := by
  funext j
  refine (addf_apply _ _ _).trans (congrArg₂ (· + ·) ?_ (hB j))
  refine (Ideal.matmul_constant_zero_apply d none X Y (ix2 r j)).trans ?_
  rw [← Equiv.sum_comp (contrEquiv1 d n hr hs).symm]
  refine Finset.sum_congr rfl fun k _ => ?_
  have hk := contrEquiv1_symm_val d n hr hs k
  obtain ⟨h0, h1, h2, h3⟩ := hi (ix2 r j) ((contrEquiv1 d n hr hs).symm k)
  rw [show d.lhsIdx (ix2 r j) ((contrEquiv1 d n hr hs).symm k) = ix2 r k from funext fun a => Fin.ext (by
      match a with
      | ⟨0, _⟩ => exact h0
      | ⟨1, _⟩ => exact h1.trans hk),
    show d.rhsIdx (ix2 r j) ((contrEquiv1 d n hr hs).symm k) = ix2 k j from funext fun a => Fin.ext (by
      match a with
      | ⟨0, _⟩ => exact h2.trans hk
      | ⟨1, _⟩ => exact h3), hY]
  rfl

/-- A weight slice and a bias row as the specification's matrix and vector. -/
def wOf (W : FVec Ideal S1x64x64 .f32) : Fin 64 → Fin 64 → EReal := fun j k => W (ix3 (0 : Fin 1) j k)
def bOf (b : FVec Ideal S1x64 .f32) : Fin 64 → EReal := fun j => b (ix2 (0 : Fin 1) j)

/-- The affine map of a block under a weight slice (entering transposed) and its bias row. -/
def linB (X : FVec Ideal S512x64 .bf16) (W : FVec Ideal S1x64x64 .f32) (b : FVec Ideal S1x64 .f32) : FVec Ideal S512x64 .f32 :=
  addf (matmul dot_S512x64_S64x64_S512x64_1_0_0_1_n_n none X
      (transpose S64x64 [1, 0] (truncf .bf16 (shapeCast S64x64 W shapeCasts_S1x64x64_S64x64) bitsLt_bf16_f32) transposes_S64x64_p1_0_S64x64)
      (constant S512x64 .f32 0x00000000#32))
    (broadcastTo S512x64 (shapeCast S1x64 (shapeCast S64 b shapeCasts_S1x64_S64) shapeCasts_S64_S1x64) broadcasts_S1x64_S512x64)

theorem linB_row (X : FVec Ideal S512x64 .bf16) (W : FVec Ideal S1x64x64 .f32) (b : FVec Ideal S1x64 .f32) (r : Fin 512) :
    row (linB X W b) r = Cert.Spec.lin (row X r) (wOf W) (bOf b) :=
  lin_apply _ rfl rfl (fun _ _ => ⟨rfl, rfl, rfl, rfl⟩) X _ _ _ _ r
    (fun k j => (transpose_ix2_apply _ _ k j).trans (shapeCast_1ab_ab_apply W _ j k))
    (fun j => (biasVec_apply _ _ _ r j).trans (shapeCast_1a_a_apply b _ j))

/-- One attention round on a block: q, k, v affine in H, s = Σ q·k along each row, (s·v) through the output map, plus H. -/
def attnB (H : FVec Ideal S512x64 .f32) (qW kW vW oW : FVec Ideal S1x64x64 .f32) (qb kb vb ob : FVec Ideal S1x64 .f32) :
    FVec Ideal S512x64 .f32 :=
  addf (linB (truncf .bf16 (mulf (broadcastTo S512x64 (shapeCast S512x1 (multiReduction .add [1] S512
      (mulf (linB (truncf .bf16 H bitsLt_bf16_f32) qW qb) (linB (truncf .bf16 H bitsLt_bf16_f32) kW kb))
      0x00000000#32 reduces_S512x64_S512 (.inl rfl) rfl) shapeCasts_S512_S512x1) broadcasts_S512x1_S512x64)
    (linB (truncf .bf16 H bitsLt_bf16_f32) vW vb)) bitsLt_bf16_f32) oW ob) H

theorem attnB_row (H : FVec Ideal S512x64 .f32) (qW kW vW oW : FVec Ideal S1x64x64 .f32) (qb kb vb ob : FVec Ideal S1x64 .f32)
    (r : Fin 512) :
    row (attnB H qW kW vW oW qb kb vb ob) r
      = Cert.Spec.attn (row H r) (wOf qW) (wOf kW) (wOf vW) (wOf oW) (bOf qb) (bOf kb) (bOf vb) (bOf ob) := by
  funext j
  refine (addf_apply _ _ _).trans (congrArg (· + H (ix2 r j)) ?_)
  refine (congrFun (linB_row _ oW ob r) j).trans (congrArg (Cert.Spec.lin · (wOf oW) (bOf ob) j) (funext fun a => ?_))
  refine (mulf_apply _ _ _).trans (congrArg₂ (· * ·) ?_ (congrFun (linB_row _ vW vb r) a))
  refine (rowScalar_apply _ r a).trans ((laneSum_apply _ _ _ r).trans (Finset.sum_congr rfl fun e _ => ?_))
  exact (mulf_apply _ _ _).trans (congrArg₂ (· * ·) (congrFun (linB_row _ qW qb r) e) (congrFun (linB_row _ kW kb r) e))

/-- The feed-forward on a block: 64 → 128, max with 0, 128 → 64, plus H. -/
def ffnB (H : FVec Ideal S512x64 .f32) (f1W : FVec Ideal S128x64 .f32) (f1b : FVec Ideal S128 .f32)
    (f2W : FVec Ideal S64x128 .f32) (f2b : FVec Ideal S64 .f32) : FVec Ideal S512x64 .f32 :=
  k0_pay3 (F := Ideal) H (addf (matmul dot_S512x64_S64x128_S512x128_1_0_0_1_n_n none (truncf .bf16 H bitsLt_bf16_f32)
      (transpose S64x128 [1, 0] (truncf .bf16 f1W bitsLt_bf16_f32) transposes_S128x64_p1_0_S64x128)
      (constant S512x128 .f32 0x00000000#32))
    (broadcastTo S512x128 (shapeCast S1x128 f1b shapeCasts_S128_S1x128) broadcasts_S1x128_S512x128)) f2W f2b

theorem ffnB_row (H : FVec Ideal S512x64 .f32) (f1W : FVec Ideal S128x64 .f32) (f1b : FVec Ideal S128 .f32)
    (f2W : FVec Ideal S64x128 .f32) (f2b : FVec Ideal S64 .f32) (r : Fin 512) :
    row (ffnB H f1W f1b f2W f2b) r
      = Cert.Spec.ffn (row H r) (fun a k => f1W (ix2 a k)) (fun a => f1b (ix1 a)) (fun j a => f2W (ix2 j a)) (fun j => f2b (ix1 j)) := by
  funext j
  unfold ffnB k0_pay3
  refine (addf_apply _ _ _).trans (congrArg (· + H (ix2 r j)) ?_)
  refine (congrFun (lin_apply _ rfl rfl (fun _ _ => ⟨rfl, rfl, rfl, rfl⟩) _ _ _ (fun j a => f2W (ix2 j a)) (fun j => f2b (ix1 j)) r
    (fun a j => transpose_ix2_apply _ _ a j) (biasVec_apply f2b _ _ r)) j).trans
    (congrArg (Cert.Spec.lin · _ _ j) (funext fun a => ?_))
  exact (maximumf_apply _ _ _).trans (congrArg₂ max (congrFun (lin_apply _ rfl rfl (fun _ _ => ⟨rfl, rfl, rfl, rfl⟩) _ _ _
    (fun a k => f1W (ix2 a k)) (fun a => f1b (ix1 a)) r (fun k a => transpose_ix2_apply _ _ k a) (biasVec_apply f1b _ _ r)) a)
    Ideal.ofBits_zero_f32)

/-- The finished accumulator plus the input bias, along row r. -/
theorem pay4_row (acc : FVec Ideal S512x64 .f32) (inb : FVec Ideal S64 .f32) (r : Fin 512) :
    row (k0_pay4 (F := Ideal) acc inb) r = fun j => acc (ix2 r j) + inb (ix1 j) :=
  funext fun j => (addf_apply _ _ _).trans (congrArg (acc (ix2 r j) + ·) (biasVec_apply inb _ _ r j))

/-- The specification's parameters spelt by per-round weight slices and bias rows. -/
def paramsOfSlices (inb : FVec Ideal S64 .f32) (qW kW vW oW : Fin 3 → FVec Ideal S1x64x64 .f32)
    (qb kb vb ob : Fin 3 → FVec Ideal S1x64 .f32) (f1W : FVec Ideal S128x64 .f32) (f1b : FVec Ideal S128 .f32)
    (f2W : FVec Ideal S64x128 .f32) (f2b : FVec Ideal S64 .f32) : Cert.Spec.Params where
  inb j := inb (ix1 j)
  qW l j k := qW l (ix3 (0 : Fin 1) j k)
  qb l j := qb l (ix2 (0 : Fin 1) j)
  kW l j k := kW l (ix3 (0 : Fin 1) j k)
  kb l j := kb l (ix2 (0 : Fin 1) j)
  vW l j k := vW l (ix3 (0 : Fin 1) j k)
  vb l j := vb l (ix2 (0 : Fin 1) j)
  oW l j k := oW l (ix3 (0 : Fin 1) j k)
  ob l j := ob l (ix2 (0 : Fin 1) j)
  f1W a k := f1W (ix2 a k)
  f1b a := f1b (ix1 a)
  f2W j a := f2W (ix2 j a)
  f2b j := f2b (ix1 j)

/-- The payload chain is the bias, three rounds and the feed-forward, so along row r it is the hidden stack of row r. -/
theorem epiPay_apply (acc : FVec Ideal S512x64 .f32) (inb : FVec Ideal S64 .f32) (qW kW vW oW : Fin 3 → FVec Ideal S1x64x64 .f32)
    (qb kb vb ob : Fin 3 → FVec Ideal S1x64 .f32) (f1W : FVec Ideal S128x64 .f32) (f1b : FVec Ideal S128 .f32)
    (f2W : FVec Ideal S64x128 .f32) (f2b : FVec Ideal S64 .f32) (r : Fin 512) (j : Fin 64) :
    epiPay (F := Ideal) acc inb (qW 0) (qb 0) (kW 0) (kb 0) (vW 0) (vb 0) (oW 0) (ob 0) (qW 1) (qb 1) (kW 1) (kb 1) (vW 1) (vb 1) (oW 1) (ob 1) (qW 2) (qb 2) (kW 2) (kb 2) (vW 2) (vb 2) (oW 2) (ob 2) f1W f1b f2W f2b (ix2 r j)
      = Cert.Spec.hidden (paramsOfSlices inb qW kW vW oW qb kb vb ob f1W f1b f2W f2b) (fun j => acc (ix2 r j)) j := by
  show row (ffnB (attnB (attnB (attnB (k0_pay4 (F := Ideal) acc inb) (qW 0) (kW 0) (vW 0) (oW 0) (qb 0) (kb 0) (vb 0) (ob 0))
    (qW 1) (kW 1) (vW 1) (oW 1) (qb 1) (kb 1) (vb 1) (ob 1)) (qW 2) (kW 2) (vW 2) (oW 2) (qb 2) (kb 2) (vb 2) (ob 2)) f1W f1b f2W f2b) r j = _
  rw [ffnB_row, attnB_row, attnB_row, attnB_row, pay4_row]
  rfl

end Cert.EpiSpec

end
-- ==== Proof.Val.R0Val.lean ====
/-
  The first region's output array. Each grid row accumulates the projection of its 512 input rows onto the 64
  hidden units and, at its last step, writes back the hidden stack of the finished accumulator under the weights
  the weight arrays spell; the eight row blocks tile the [4096, 64] array.
-/
import proofs.«132161_j53506702573937_1_alg».proof.Proof.Val.R0Acc
import proofs.«132161_j53506702573937_1_alg».proof.Proof.Val.EpiSpec
import proofs.«132161_j53506702573937_1_alg».proof.Proof.Val.Params
import Idealize.ShloMosaic.Lib.ValueIdx
import Idealize.ShloMosaic.Lib.Pipeline.Value

noncomputable section

namespace Cert.KernelIdeal.R0Val

open Cert.KernelIdeal Cert.KernelIdeal.Gen Cert.KernelIdeal.Hand
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- With every offset zero the rectangle of the array's own sizes is the whole array. -/
theorem read_whole (b : Ref sig .tc) {idx : Fin b.ty.shape.rank → ℕ} (h : ∀ a, idx a = 0)
    (inb : ∀ a, idx a * b.ty.shape.size a + b.ty.shape.size a ≤ b.ty.shape.size a) (f : b.ty.Contents (Elt Ideal)) :
    ((Memref.whole b).access (Rect.unit (fun a => idx a * b.ty.shape.size a) b.ty.shape.size inb) : View sig .tc _ _ _).read (Elt Ideal) f = f :=
  Memref.read_access_unit_zero _ b (funext fun a => by rw [h a, Nat.zero_mul]) inb f

theorem idx_res : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0)
    ∧ (∀ a, win0_9.index t a = 0) ∧ (∀ a, win0_10.index t a = 0) ∧ (∀ a, win0_11.index t a = 0) ∧ (∀ a, win0_12.index t a = 0)
    ∧ (∀ a, win0_13.index t a = 0) ∧ (∀ a, win0_14.index t a = 0) :=
  (by decide +kernel : ∀ t : Fin grid0.N, _)

theorem blk2_eq (c : Dev nD) (t : Fin cfg0.N) : (iblk0 V c 2 t : FVec Ideal S64 .f32) = V c main_arg2 :=
  read_whole main_arg2 (idx_res t).1 _ _
theorem blk3_eq (c : Dev nD) (t : Fin cfg0.N) : (iblk0 V c 3 t : FVec Ideal S3x64x64 .f32) = V c main_arg3 :=
  read_whole main_arg3 (idx_res t).2.1 _ _
theorem blk4_eq (c : Dev nD) (t : Fin cfg0.N) : (iblk0 V c 4 t : FVec Ideal S3x64 .f32) = V c main_arg4 :=
  read_whole main_arg4 (idx_res t).2.2.1 _ _
theorem blk5_eq (c : Dev nD) (t : Fin cfg0.N) : (iblk0 V c 5 t : FVec Ideal S3x64x64 .f32) = V c main_arg5 :=
  read_whole main_arg5 (idx_res t).2.2.2.1 _ _
theorem blk6_eq (c : Dev nD) (t : Fin cfg0.N) : (iblk0 V c 6 t : FVec Ideal S3x64 .f32) = V c main_arg6 :=
  read_whole main_arg6 (idx_res t).2.2.2.2.1 _ _
theorem blk7_eq (c : Dev nD) (t : Fin cfg0.N) : (iblk0 V c 7 t : FVec Ideal S3x64x64 .f32) = V c main_arg7 :=
  read_whole main_arg7 (idx_res t).2.2.2.2.2.1 _ _
theorem blk8_eq (c : Dev nD) (t : Fin cfg0.N) : (iblk0 V c 8 t : FVec Ideal S3x64 .f32) = V c main_arg8 :=
  read_whole main_arg8 (idx_res t).2.2.2.2.2.2.1 _ _
theorem blk9_eq (c : Dev nD) (t : Fin cfg0.N) : (iblk0 V c 9 t : FVec Ideal S3x64x64 .f32) = V c main_arg11 :=
  read_whole main_arg11 (idx_res t).2.2.2.2.2.2.2.1 _ _
theorem blk10_eq (c : Dev nD) (t : Fin cfg0.N) : (iblk0 V c 10 t : FVec Ideal S3x64 .f32) = V c main_arg12 :=
  read_whole main_arg12 (idx_res t).2.2.2.2.2.2.2.2.1 _ _
theorem blk11_eq (c : Dev nD) (t : Fin cfg0.N) : (iblk0 V c 11 t : FVec Ideal S128x64 .f32) = V c main_arg13 :=
  read_whole main_arg13 (idx_res t).2.2.2.2.2.2.2.2.2.1 _ _
theorem blk12_eq (c : Dev nD) (t : Fin cfg0.N) : (iblk0 V c 12 t : FVec Ideal S128 .f32) = V c main_arg14 :=
  read_whole main_arg14 (idx_res t).2.2.2.2.2.2.2.2.2.2.1 _ _
theorem blk13_eq (c : Dev nD) (t : Fin cfg0.N) : (iblk0 V c 13 t : FVec Ideal S64x128 .f32) = V c main_arg15 :=
  read_whole main_arg15 (idx_res t).2.2.2.2.2.2.2.2.2.2.2.1 _ _
theorem blk14_eq (c : Dev nD) (t : Fin cfg0.N) : (iblk0 V c 14 t : FVec Ideal S64 .f32) = V c main_arg16 :=
  read_whole main_arg16 (idx_res t).2.2.2.2.2.2.2.2.2.2.2.2 _ _

/-- Layer l of a stacked weight at (0, j, k) is the stack at (l, j, k), and likewise a stacked bias. -/
theorem params_slices (x2 x14 : FVec Ideal S64 .f32) (x3 x5 x7 x9 : Vec Ideal S3x64x64 .f32) (x4 x6 x8 x10 : Vec Ideal S3x64 .f32)
    (x11 : FVec Ideal S128x64 .f32) (x12 : FVec Ideal S128 .f32) (x13 : FVec Ideal S64x128 .f32) :
    Cert.EpiSpec.paramsOfSlices x2 (sl3 x3) (sl3 x5) (sl3 x7) (sl3 x9) (sl2 x4) (sl2 x6) (sl2 x8) (sl2 x10) x11 x12 x13 x14
      = Cert.Spec.paramsOf x2 x3 x4 x5 x6 x7 x8 x9 x10 x11 x12 x13 x14 := by
  simp only [Cert.EpiSpec.paramsOfSlices, Cert.Spec.paramsOf, sl3_apply, sl2_apply]

theorem idx15 : ∀ t : Fin cfg0.N, win0_15.index t (0 : Fin 2) = t.val / 8 ∧ win0_15.index t (1 : Fin 2) = 0 :=
  (by decide +kernel : ∀ t : Fin grid0.N, _)

/-- The eight row blocks tile the array: row r lies in the block written back at point 8·(r / 512) + 7. -/
theorem cover15 (i : S4096x64.Idx) :
    ∃ t : Fin cfg0.N, (cfg0.win 15).flush t = true ∧ i ∈ ((cfg0.win 15).blk t).view.set := by
  have hi0 : (i 0).val < 4096 := (i 0).isLt
  have hi1 : (i 1).val < 64 := (i 1).isLt
  have hN : cfg0.N = 64 := N_0
  have ht : 8 * ((i 0).val / 512) + 7 < cfg0.N := by omega
  obtain ⟨e0, e1⟩ := idx15 ⟨_, ht⟩
  have e0' : win0_15.index ⟨_, ht⟩ (0 : Fin 2) = (8 * ((i 0).val / 512) + 7) / 8 := e0
  refine ⟨⟨_, ht⟩, (flush0_15 _).mpr (by show (8 * ((i 0).val / 512) + 7) % 8 = 7; omega), ?_⟩
  show i ∈ ((View.whole main_v5).slice (win0_15.rect ⟨_, ht⟩)).set
  rw [View.set_slice_whole, Rect.mem_set_unit]
  intro a
  match a with
  | ⟨0, _⟩ =>
    show win0_15.index ⟨_, ht⟩ (0 : Fin 2) * 512 ≤ (i 0).val ∧ (i 0).val < win0_15.index ⟨_, ht⟩ (0 : Fin 2) * 512 + 512
    omega
  | ⟨1, _⟩ =>
    show win0_15.index ⟨_, ht⟩ (1 : Fin 2) * 64 ≤ (i 1).val ∧ (i 1).val < win0_15.index ⟨_, ht⟩ (1 : Fin 2) * 64 + 64
    omega

/-- Entry (r, j): the hidden stack, under the weight arrays' parameters, of the accumulated projection of input row r. -/
abbrev G0 (c : Dev nD) : FVec Ideal S4096x64 .f32 := fun i =>
  Cert.Spec.hidden (Cert.Spec.paramsOf (V c main_arg2) (V c main_arg3) (V c main_arg4) (V c main_arg5) (V c main_arg6) (V c main_arg7) (V c main_arg8) (V c main_arg11) (V c main_arg12) (V c main_arg13) (V c main_arg14) (V c main_arg15) (V c main_arg16))
    (fun j' => Cert.PadSum.accUpTo (Cert.PadSum.blockDot (xrow V c (i 0)) (wrow V c j')) 7) (i 1)

/-- The stored block is the epilogue of the finished accumulator, and the weight blocks it reads are the weight arrays. -/
theorem flushed15_eq (c : Dev nD) (t : Fin cfg0.N) (hf : (cfg0.win 15).flush t = true) :
    (dat0 V c).flushed 15 t = ((cfg0.win 15).blk t).view.read (Elt Ideal) (G0 V c) := by
  have h1 : t.val % 8 = 7 := (flush0_15 t).mp hf
  have h0 : ¬t.val % 8 = 0 := by omega
  have ht : t.val < 64 := lt_of_lt_of_eq t.isLt N_0
  obtain ⟨e0, e1⟩ := idx15 t
  funext y
  have hy0 : (y 0).val < 512 := (y 0).isLt
  have hy1 : (y 1).val < 64 := (y 1).isLt
  have hX : win0_15.xinj (grid0.coords t) y = ix2 (⟨(y 0).val, hy0⟩ : Fin 512) (⟨(y 1).val, hy1⟩ : Fin 64) :=
    Shape.idx_ext₂ rfl rfl
  have hG : ((cfg0.win 15).blk t).view.emb y
      = ix2 (⟨512 * (t.val / 8) + (y 0).val, by omega⟩ : Fin 4096) (⟨(y 1).val, hy1⟩ : Fin 64) :=
    Shape.idx_ext₂ (by show win0_15.index t (0 : Fin 2) * 512 + 1 * (y 0).val = 512 * (t.val / 8) + (y 0).val; omega)
      (by show win0_15.index t (1 : Fin 2) * 64 + 1 * (y 1).val = (y 1).val; omega)
  rw [View.read_apply]
  show (dat0 V c).after 15 t (win0_15.xinj (grid0.coords t) y) = G0 V c (((cfg0.win 15).blk t).view.emb y)
  rw [hX, hG, after0_15, outsAt0_C V c t h0 h1]
  dsimp only
  unfold epiAt0
  refine (Cert.EpiSpec.epiPay_apply ..).trans ?_
  rw [params_slices, blk2_eq, blk3_eq, blk4_eq, blk5_eq, blk6_eq, blk7_eq, blk8_eq, blk9_eq, blk10_eq, blk11_eq, blk12_eq, blk13_eq, blk14_eq,
    ← acc_next V c t h0, funext fun j' => acc_at V c j' t ⟨(y 0).val, hy0⟩ ⟨512 * (t.val / 8) + (y 0).val, by omega⟩ rfl, h1]

theorem arr15_eq (c : Dev nD) : (dat0 V c).arrAt 15 cfg0.N = G0 V c :=
  (dat0 V c).arrAt_eq_of_cover 15 (G0 V c) (flushed15_eq V c) cover15

theorem arr15_apply (c : Dev nD) (r : Fin 4096) (j : Fin 64) :
    ((dat0 V c).arrAt 15 cfg0.N : FVec Ideal S4096x64 .f32) (ix2 r j)
      = Cert.Spec.hidden (Cert.Spec.paramsOf (V c main_arg2) (V c main_arg3) (V c main_arg4) (V c main_arg5) (V c main_arg6) (V c main_arg7) (V c main_arg8) (V c main_arg11) (V c main_arg12) (V c main_arg13) (V c main_arg14) (V c main_arg15) (V c main_arg16))
          (fun j' => Cert.PadSum.accUpTo (Cert.PadSum.blockDot (xrow V c r) (wrow V c j')) 7) j :=
  congrFun (arr15_eq V c) (ix2 r j)

end Cert.KernelIdeal.R0Val

end
-- ==== Proof.Val.R1Val.lean ====
/-
  Region 1's output array as one function of the arrays the region finds: every grid point writes back its own
  block and the 64 blocks tile the array, so at (r, g) it ends holding  Σ_k h(r,k) · W(g,k) + b(0,g).
-/
import proofs.«132161_j53506702573937_1_alg».proof.Proof.KI.R1Body
import proofs.«132161_j53506702573937_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1Val

open Cert.KernelIdeal Cert.KernelIdeal.Gen Cert.KernelIdeal.Hand Idealize.ShloMosaic Idealize.ShloMosaic.TcCoe
open Idealize.ShloMosaic.ValueIdx Idealize.SL.Sem
open Idealize.ShloMosaic.Pipeline (Dat)
open scoped BigOperators

abbrev D := dot_S512x64_S64x2560_S512x2560_1_0_0_1_n_n

/-- Entry (p, q) of the block product is Σ_k X(p,k) · Y(k,q): the contraction re-indexed by its one coordinate. -/
theorem matmulOut_apply (X : FVec Ideal S512x64 .bf16) (Y : FVec Ideal S64x2560 .bf16) (p : Fin 512) (q : Fin 2560) :
    matmul D none X Y (constant (F := Ideal) S512x2560 .f32 0x00000000#32) (ix2 p q) = ∑ k : Fin 64, X (ix2 p k) * Y (ix2 k q) := by
  refine (Ideal.matmul_constant_zero_apply D none X Y (ix2 p q)).trans ?_
  rw [← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k :=
    funext fun a => Fin.ext (by match a with | ⟨0, _⟩ => rfl | ⟨1, _⟩ => exact hk)
  have er : D.rhsIdx (ix2 p q) ((contrEquiv1 D 64 rfl rfl).symm k) = ix2 k q :=
    funext fun a => Fin.ext (by match a with | ⟨0, _⟩ => exact hk | ⟨1, _⟩ => rfl)
  rw [el, er]

/-- The payload at (p, q) is Σ_k x0(p,k) · x1(q,k) + x2(0,q): the transpose and the broadcast read at the index. -/
theorem pay1_apply (x0 : FVec Ideal S512x64 .f32) (x1 : FVec Ideal S2560x64 .f32) (x2 : FVec Ideal S1x2560 .f32)
    (p : Fin 512) (q : Fin 2560) :
    k1_pay1 (F := Ideal) x0 x1 x2 (ix2 p q)
      = (∑ k : Fin 64, x0 (ix2 p k) * x1 (ix2 q k)) + x2 (ix2 (0 : Fin 1) q) := by
  unfold k1_pay1
  rw [shapeCast_self x0, shapeCast_self x1, shapeCast_self x2]
  exact (addf_apply _ _ _).trans (congrArg₂ (· + ·)
    ((matmulOut_apply _ _ p q).trans (Finset.sum_congr rfl fun k _ =>
      congrArg (x0 (ix2 p k) * ·) (transpose_ix2_apply _ _ k q)))
    (broadcastTo_1b_ab_apply _ _ p q))

section Region
variable (V : (c : Dev nD) → (b : Ref sig .tc) → Buf (Elt Ideal) ((c : Thread nD τ).loc b))

/-- The claimed contents: entry (r, g) is the specification's affine map of hidden row r, at output g. -/
def G1 (c : Dev nD) : FVec Ideal S4096x20480 .f32 := fun i =>
  Cert.Spec.lin (fun j => (V c main_v5 : FVec Ideal S4096x64 .f32) (ix2 (i 0 : Fin 4096) j))
    (fun g' j => (V c main_v2 : FVec Ideal S20480x64 .f32) (ix2 g' j))
    (fun g' => (V c main_v4 : FVec Ideal S1x20480 .f32) (ix2 (0 : Fin 1) g')) (i 1 : Fin 20480)

/-- The index maps, decided over the grid: they place each block in its array. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

/-- Point t writes back block t of G1: the input blocks sit in their arrays at the output block's row and column. -/
theorem flushed_eq (c : Dev nD) (t : Fin cfg1.N) :
    (dat1 V c).flushed 3 t = ((cfg1.win 3).blk t).view.read (Elt Ideal) (G1 V c) := by
  obtain ⟨e00, e01, e10, e11, e20, e21, e30, e31⟩ := idx_facts t
  funext j
  obtain ⟨p, q, rfl⟩ : ∃ (p : Fin 512) (q : Fin 2560), j = ix2 p q := ⟨j 0, j 1, eq_ix2 j⟩
  refine (pay1_apply (iblk1 V c 0 t) (iblk1 V c 1 t) (iblk1 V c 2 t) p q).trans (congrArg₂ (· + ·) (Finset.sum_congr rfl fun k _ => congrArg₂ (· * ·) ?_ ?_) ?_)
  · refine congrArg (V c main_v5) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 64 + 1 * k.val = k.val; omega
  · refine congrArg (V c main_v2) (funext fun a => Fin.ext ?_)
    match a with
    | ⟨0, _⟩ => show win1_1.index t (0 : Fin 2) * 2560 + 1 * q.val = win1_3.index t (1 : Fin 2) * 2560 + 1 * q.val; omega
    | ⟨1, _⟩ => show win1_1.index t (1 : Fin 2) * 64 + 1 * k.val = k.val; omega
  · refine congrArg (V c main_v4) (funext fun a => Fin.ext ?_)
    match a with
    | ⟨0, _⟩ => show win1_2.index t (0 : Fin 2) * 1 + 1 * 0 = 0; omega
    | ⟨1, _⟩ => show win1_2.index t (1 : Fin 2) * 2560 + 1 * q.val = win1_3.index t (1 : Fin 2) * 2560 + 1 * q.val; omega

/-- The 64 blocks tile the array: (r, g) is coordinate (r % 512, g % 2560) of the block of point (r / 512) · 8 + g / 2560. -/
theorem cover (i : S4096x20480.Idx) :
    ∃ t : Fin cfg1.N, (cfg1.win 3).flush t = true ∧ i ∈ ((cfg1.win 3).blk t).view.set := by
  have hi0 : (i 0).val < 4096 := (i 0).isLt
  have hi1 : (i 1).val < 20480 := (i 1).isLt
  obtain ⟨t, ht⟩ : ∃ t : Fin cfg1.N, t.val = (i 0).val / 512 * 8 + (i 1).val / 2560 :=
    ⟨⟨(i 0).val / 512 * 8 + (i 1).val / 2560, by rw [show cfg1.N = 64 from N_1]; omega⟩, rfl⟩
  obtain ⟨-, -, -, -, -, -, e30, e31⟩ := idx_facts t
  refine ⟨t, flush1_3 t, ?_⟩
  rw [show i = ((cfg1.win 3).blk t).view.emb (ix2 (⟨(i 0).val % 512, by omega⟩ : Fin 512) (⟨(i 1).val % 2560, by omega⟩ : Fin 2560)) from
    funext fun a => Fin.ext (by
      match a with
      | ⟨0, _⟩ => show (i 0).val = win1_3.index t (0 : Fin 2) * 512 + 1 * ((i 0).val % 512); omega
      | ⟨1, _⟩ => show (i 1).val = win1_3.index t (1 : Fin 2) * 2560 + 1 * ((i 1).val % 2560); omega)]
  exact View.emb_mem_set _ _

/-- Every block agrees with G1 and the blocks cover the array, so it ends at G1. -/
theorem arr3_eq (c : Dev nD) : (dat1 V c).arrAt 3 cfg1.N = G1 V c :=
  (dat1 V c).arrAt_eq_of_cover 3 (G1 V c) (fun t _ => flushed_eq V c t) cover

end Region

end Cert.KernelIdeal.R1Val

end
-- ==== Proof.Val.Final.lean ====
/-
  The kernel program's result, index by index: row r of the second region's output, cut to its first 20000 columns,
  is the affine output map of the hidden row the first region left, itself the specification's image of input row r.
-/
import proofs.«132161_j53506702573937_1_alg».proof.Proof.KI.Whole
import proofs.«132161_j53506702573937_1_alg».proof.Proof.Val.HostVal
import proofs.«132161_j53506702573937_1_alg».proof.Proof.Val.R0Acc
import proofs.«132161_j53506702573937_1_alg».proof.Proof.Val.PadSum
import proofs.«132161_j53506702573937_1_alg».proof.Proof.Val.Params
import proofs.«132161_j53506702573937_1_alg».proof.Proof.Val.R0Val
import proofs.«132161_j53506702573937_1_alg».proof.Proof.Val.R1Val

set_option maxRecDepth 16384

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-- A buffer of core c at launch. -/
abbrev A (c : Dev nD) (b : Ref sig .tc) : Buf (Elt Ideal) ((c : Thread nD τ).loc b) := m ((c : Thread nD τ).loc b)

/-- The specification's parameters, read off core c's launch buffers. -/
abbrev P (c : Dev nD) : Cert.Spec.Params :=
  Cert.Spec.paramsOf (A m c main_arg2) (A m c main_arg3) (A m c main_arg4) (A m c main_arg5) (A m c main_arg6) (A m c main_arg7) (A m c main_arg8) (A m c main_arg11) (A m c main_arg12) (A m c main_arg13) (A m c main_arg14) (A m c main_arg15) (A m c main_arg16)

/-- Input row r, and the input weight. -/
abbrev x (c : Dev nD) (r : Fin 4096) := fun g' => (A m c main_arg0 : FVec Ideal S4096x20000 .f32) (ix2 r g')
abbrev inW (c : Dev nD) := fun j' g' => (A m c main_arg1 : FVec Ideal S64x20000 .f32) (ix2 j' g')

/-- The hidden row the first region leaves: over the zero padding the eight block products add up to the full projection. -/
theorem hidden_row (c : Dev nD) (r : Fin 4096) (j : Fin 64) :
    ((dat0 (Ve0 m) c).arrAt 15 cfg0.N : FVec Ideal S4096x64 .f32) (ix2 r j) = Cert.Spec.hidden (P m c) (Cert.Spec.proj (x m c r) (inW m c)) j := by
  refine (R0Val.arr15_apply (Ve0 m) c r j).trans ?_
  rw [show R0Val.xrow (Ve0 m) c r = Cert.PadSum.pad (x m c r) from funext fun g => HostVal.V9_main_v0 m c r g]
  simp (disch := decide) only [show ∀ j', R0Val.wrow (Ve0 m) c j' = Cert.PadSum.pad (inW m c j') from fun j' => funext fun g => HostVal.V9_main_v1 m c j' g,
    Cert.PadSum.accUpTo_seven, Ve0, HostVal.V9_keep]
  rfl

/-- The program's result at (r, g) is the specification's output g on input row r. -/
theorem result_apply (c : Dev nD) (r : Fin 4096) (g : Fin 20000) :
    (W12 m c (Proc.devRef .tc main_v7) : FVec Ideal S4096x20000 .f32) (ix2 r g)
      = Cert.Spec.full (P m c) (x m c r) (inW m c)
          (fun g' j' => (A m c main_arg17 : FVec Ideal S20000x64 .f32) (ix2 g' j'))
          (fun g' => (A m c main_arg18 : FVec Ideal S20000 .f32) (ix1 g')) g :=
  (HostVal.slice_main_v7 (W11 m c) r g).trans <| (congrFun (W11_arr m c 3) _).trans <| (congrFun (R1Val.arr3_eq (Ve1 m) c) _).trans <|
    congrArg₂ (· + ·)
      (Finset.sum_congr rfl fun k _ => congrArg₂ (· * ·)
        ((congrFun (W10_arr m c 15) (ix2 r k)).trans (hidden_row m c r k))
        ((congrFun (W10_of_ne m c main_v2 (by decide)) _).trans (HostVal.V9_main_v2 m c g k)))
      ((congrFun (W10_of_ne m c main_v4 (by decide)) _).trans (HostVal.V9_main_v4 m c g))

end Cert.KernelIdeal.Final

end
-- ==== Proof.lean ====
/-
  The claim: the blocked kernel and the one-shot reference compute the same array. The kernel's operands are the
  reference's extended by zeros, so every inner product gains only zero terms, and a finite sum does not depend on how
  it is cut into blocks; the hidden stack and the output map then meet equal inputs. Each program keeps its arguments.
-/
import proofs.«132161_j53506702573937_1_alg».proof.Defs
import proofs.«132161_j53506702573937_1_alg».proof.Proof.Gen.Kernel
import proofs.«132161_j53506702573937_1_alg».proof.Proof.Gen.KernelIdeal
import proofs.«132161_j53506702573937_1_alg».proof.Proof.Gen.ReferenceIdeal
import proofs.«132161_j53506702573937_1_alg».proof.Proof.Gen.Pre_finite_inputs
import proofs.«132161_j53506702573937_1_alg».proof.Proof.K.Whole
import proofs.«132161_j53506702573937_1_alg».proof.Proof.KI.Whole
import proofs.«132161_j53506702573937_1_alg».proof.Proof.Val.RefSpec
import proofs.«132161_j53506702573937_1_alg».proof.Proof.Val.Final
import Idealize.ShloMosaic.Adequacy
import Idealize.ShloMosaic.Init

noncomputable section

namespace Cert.Proof

open Idealize.ShloMosaic Idealize.ShloMosaic.TcCoe Idealize.SL.Sem

/-- Each argument is a kept buffer of the run. -/
theorem frame_k : Cert.frame_Kernel := fun m ρ _ =>
  (θ_run _ _ _).mono (fun _ h c => by and_intros <;> exact (h c).2 _ (by decide)) (Cert.Kernel.Hand.run_result (F := Bits) m ρ)

theorem frame_ki : Cert.frame_KernelIdeal := fun m ρ _ =>
  (θ_run _ _ _).mono (fun _ h c => by and_intros <;> exact (h c).2 _ (by decide)) (Cert.KernelIdeal.Hand.run_result (F := Ideal) m ρ)

/-- A host program's value run carries its frame. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At every index both results are the output map of the hidden stack of the projected row. -/
theorem algebraic : Cert.algebraic_KernelIdeal_ReferenceIdeal := by
  intro m ρ m' ρ' _ hagree
  refine ⟨fun c => Cert.KernelIdeal.Hand.W12 m c (Proc.devRef .tc Cert.KernelIdeal.main_v7),
    (θ_run _ _ _).mono (fun _ h c => ⟨(h c).1, by and_intros <;> exact (h c).2 _ (by decide)⟩)
      (Cert.KernelIdeal.Hand.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v147_eq]
  obtain ⟨h0, h1, h2, h3, h4, h5, h6, h7, h8, h9, h10, h11, h12, h13, h14, h15, h16, h17, h18⟩ := hagree c
  rw [h0, h1, h2, h3, h4, h5, h6, h7, h8, h11, h12, h13, h14, h15, h16, h17, h18]
  funext i
  obtain ⟨r, g, rfl⟩ : ∃ (r : Fin 4096) (g : Fin 20000), i = ValueIdx.ix2 r g := ⟨i 0, i 1, ValueIdx.eq_ix2 i⟩
  rw [Cert.RefSpec.ref_full]
  exact (Cert.KernelIdeal.Final.result_apply m c r g).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
